-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_1)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_1) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S512x16384 : Shape := ⟨2, ![512, 16384]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x16384 : S_.BroadcastsInDim S512x16384 (![] : Fin 0 → Fin S512x16384.rank)
  reducesTo_S512x16384_S_d0_1 : S512x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64 .f32) (main_arg8 : FVec F S1x64 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S1x64 .f32) (main_arg9 : FVec F S1 .f32) (main_v13 : IVec S_ 1) (main_v16 : IVec S512x16384 1) : IVec S_ 1 :=
  let main_c_5 : IVec S_ 1 := constantI S_ 1 1#1
  let main_v17 : IVec S_ 1 := (fun x v => Host.reduce IntOp.andi x v reducesTo_S512x16384_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x64 .f32) (main_arg1 : FVec F S16384x16384 .f32) (main_arg2 : FVec F S512x16384 .f32) (main_arg3 : FVec F S512x16384 .f32) (main_arg4 : FVec F S64x64 .f32) (main_arg5 : FVec F S64 .f32) (main_arg6 : FVec F S64x64 .f32) (main_arg7 : FVec F S64 .f32) (main_arg8 : FVec F S1x64 .f32) (main_arg9 : FVec F S1 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x16384 .f32 := Host.absf main_arg2
  let main_cst_2 : FVec F S_ .f32 := constant S_ .f32 0x7F800000#32
  let main_v10 : FVec F S512x16384 .f32 := broadcastInDim S512x16384 ![] bcast_S_S512x16384 main_cst_2
  let main_v11 : IVec S512x16384 1 := cmpf .olt main_v9 main_v10
  let main_c_3 : IVec S_ 1 := constantI S_ 1 1#1
  let main_v12 : IVec S_ 1 := (fun x v => Host.reduce IntOp.andi x v reducesTo_S512x16384_S_d0_1 h_S_) main_v11 main_c_3
  let main_v13 : IVec S_ 1 := andi main_v8 main_v12
  let main_v14 : FVec F S512x16384 .f32 := Host.absf main_arg3
  let main_cst_4 : FVec F S_ .f32 := constant S_ .f32 0x7F800000#32
  let main_v15 : FVec F S512x16384 .f32 := broadcastInDim S512x16384 ![] bcast_S_S512x16384 main_cst_4
  let main_v16 : IVec S512x16384 1 := cmpf .olt main_v14 main_v15
  fn_part1 (F := F) main_arg4 main_arg5 main_arg6 main_arg7 main_arg8 main_arg9 main_v13 main_v16
-- ==== Kernel.lean ====
abbrev S16384x64 : Shape := ⟨2, ![16384, 64]⟩
abbrev S16384x16384 : Shape := ⟨2, ![16384, 16384]⟩
abbrev S512x16384 : Shape := ⟨2, ![512, 16384]⟩
abbrev S64x64 : Shape := ⟨2, ![64, 64]⟩
abbrev S64 : Shape := ⟨1, ![64]⟩
abbrev S1x64 : Shape := ⟨2, ![1, 64]⟩
abbrev S1 : Shape := ⟨1, ![1]⟩
abbrev S2048x64 : Shape := ⟨2, ![2048, 64]⟩
abbrev S1024x2048 : Shape := ⟨2, ![1024, 2048]⟩
abbrev S1024x64 : Shape := ⟨2, ![1024, 64]⟩
abbrev S1x1 : Shape := ⟨2, ![1, 1]⟩
abbrev S16384 : Shape := ⟨1, ![16384]⟩
abbrev S1024 : Shape := ⟨1, ![1024]⟩
abbrev S1x16384 : Shape := ⟨2, ![1, 16384]⟩
abbrev S512x64 : Shape := ⟨2, ![512, 64]⟩
abbrev S32x16384 : Shape := ⟨2, ![32, 16384]⟩
abbrev S32x64 : Shape := ⟨2, ![32, 64]⟩
abbrev S32 : Shape := ⟨1, ![32]⟩
abbrev S32x1 : Shape := ⟨2, ![32, 1]⟩

abbrev nBuf : Space → Nat
  | .hbm => 20
  | .vmem => 36
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S512x16384, .f32⟩
  | .hbm, ⟨3, _⟩ => ⟨S512x16384, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x64, .f32⟩
  | .hbm, ⟨11, _⟩ => ⟨S16384x64, .bf16⟩
  | .hbm, ⟨12, _⟩ => ⟨S1x64, .f32⟩
  | .hbm, ⟨13, _⟩ => ⟨S16384x64, .bf16⟩
  | .hbm, ⟨14, _⟩ => ⟨S1x1, .f32⟩
  | .hbm, ⟨15, _⟩ => ⟨S16384x64, .bf16⟩
  | .hbm, ⟨16, _⟩ => ⟨S16384, .f32⟩
  | .hbm, ⟨17, _⟩ => ⟨S1x16384, .f32⟩
  | .hbm, ⟨18, _⟩ => ⟨S512x16384, .f32⟩
  | .hbm, ⟨19, _⟩ => ⟨S512x64, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S1x64, .f32⟩
  | .local _ .vmem, ⟨4, _⟩ => ⟨S2048x64, .bf16⟩
  | .local _ .vmem, ⟨5, _⟩ => ⟨S2048x64, .bf16⟩
  | .local _ .vmem, ⟨6, _⟩ => ⟨S1024x2048, .f32⟩
  | .local _ .vmem, ⟨7, _⟩ => ⟨S1024x2048, .f32⟩
  | .local _ .vmem, ⟨8, _⟩ => ⟨S2048x64, .bf16⟩
  | .local _ .vmem, ⟨9, _⟩ => ⟨S2048x64, .bf16⟩
  | .local _ .vmem, ⟨10, _⟩ => ⟨S64x64, .f32⟩
  | .local _ .vmem, ⟨11, _⟩ => ⟨S1x64, .f32⟩
  | .local _ .vmem, ⟨12, _⟩ => ⟨S1024x64, .bf16⟩
  | .local _ .vmem, ⟨13, _⟩ => ⟨S1024x64, .bf16⟩
  | .local _ .vmem, ⟨14, _⟩ => ⟨S1024x64, .f32⟩
  | .local _ .vmem, ⟨15, _⟩ => ⟨S1024x2048, .f32⟩
  | .local _ .vmem, ⟨16, _⟩ => ⟨S1024x2048, .f32⟩
  | .local _ .vmem, ⟨17, _⟩ => ⟨S2048x64, .bf16⟩
  | .local _ .vmem, ⟨18, _⟩ => ⟨S2048x64, .bf16⟩
  | .local _ .vmem, ⟨19, _⟩ => ⟨S1x64, .f32⟩
  | .local _ .vmem, ⟨20, _⟩ => ⟨S1x1, .f32⟩
  | .local _ .vmem, ⟨21, _⟩ => ⟨S1024x64, .bf16⟩
  | .local _ .vmem, ⟨22, _⟩ => ⟨S1024x64, .bf16⟩
  | .local _ .vmem, ⟨23, _⟩ => ⟨S1024, .f32⟩
  | .local _ .vmem, ⟨24, _⟩ => ⟨S1024, .f32⟩
  | .local _ .vmem, ⟨25, _⟩ => ⟨S1024x64, .f32⟩
  | .local _ .vmem, ⟨26, _⟩ => ⟨S32x16384, .f32⟩
  | .local _ .vmem, ⟨27, _⟩ => ⟨S32x16384, .f32⟩
  | .local _ .vmem, ⟨28, _⟩ => ⟨S32x16384, .f32⟩
  | .local _ .vmem, ⟨29, _⟩ => ⟨S32x16384, .f32⟩
  | .local _ .vmem, ⟨30, _⟩ => ⟨S1x16384, .f32⟩
  | .local _ .vmem, ⟨31, _⟩ => ⟨S16384x64, .bf16⟩
  | .local _ .vmem, ⟨32, _⟩ => ⟨S32x16384, .f32⟩
  | .local _ .vmem, ⟨33, _⟩ => ⟨S32x16384, .f32⟩
  | .local _ .vmem, ⟨34, _⟩ => ⟨S32x64, .f32⟩
  | .local _ .vmem, ⟨35, _⟩ => ⟨S32x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![16, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S32x16384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S32x16384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x16384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16384x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S32x16384 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S32x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S2048x64 : S1x64.Broadcasts S2048x64
  packedbf16_S2048x64_S2048x64_0_0 : (Rect.unit (s := S2048x64) ![0, 0] S2048x64.size inb_S2048x64_S2048x64_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  shapeCasts_S2048x64_S2048x64 : S2048x64.ShapeCasts S2048x64
  broadcasts_S1x64_S1024x64 : S1x64.Broadcasts S1024x64
  packedbf16_S1024x64_S1024x64_0_0 : (Rect.unit (s := S1024x64) ![0, 0] S1024x64.size inb_S1024x64_S1024x64_0_0).PackedRows (EltTy.packing .bf16)
  shapeCasts_S1_S1x1 : S1.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S1024x64_S1024 : S1024x64.Reduces [1] S1024
  inb_S1024_S1024_0 : ∀ a, (![0] : Fin 1 → Nat) a + S1024.size a ≤ S1024.size a
  h_S1024 : 0 < S1024.numel
  shapeCasts_S16384_S1x16384 : S16384.ShapeCasts S1x16384
  inb_S32x16384_S32x16384_0_0 : ∀ a, (![0, 0] : Fin 2 → Nat) a + S32x16384.size a ≤ S32x16384.size a
  h_S32x16384 : 0 < S32x16384.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S1x16384_S32x16384 : S1x16384.Broadcasts S32x16384
  reduces_S32x16384_S32 : S32x16384.Reduces [1] S32
  shapeCasts_S32_S32x1 : S32.ShapeCasts S32x1
  broadcasts_S32x1_S32x16384 : S32x1.Broadcasts S32x16384
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S32x64_S32x64_0_0 : ∀ a, (![0, 0] : Fin 2 → Nat) a + S32x64.size a ≤ S32x64.size a
  h_S32x64 : 0 < S32x64.numel
  dot_S2048x64_S64x64_S2048x64_1_0_0_1_n_n_wf : DotDims.WF S2048x64 S64x64 S2048x64 [1] [0] [0] [1] [] []
  dot_S1024x2048_S2048x64_S1024x64_1_0_0_1_n_n_wf : DotDims.WF S1024x2048 S2048x64 S1024x64 [1] [0] [0] [1] [] []
  dot_S1024x64_S64x64_S1024x64_1_0_0_1_n_n_wf : DotDims.WF S1024x64 S64x64 S1024x64 [1] [0] [0] [1] [] []
  dot_S32x16384_S16384x64_S32x64_1_0_0_1_n_n_wf : DotDims.WF S32x16384 S16384x64 S32x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .bf16 = 32 ∨ (Rect.block (s := S16384x64) S2048x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .bf16 = 32 ∨ (Rect.block (s := S16384x64) S2048x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S16384x64.size a
  hwx1_4 : ∀ i : grid1.Coords, EltTy.bits .bf16 = 32 ∨ (Rect.block (s := S16384x64) S1024x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x16384.size a
  hwx2_0 : ∀ i : grid2.Coords, EltTy.bits .f32 = 32 ∨ (Rect.block (s := S16384x16384) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S16384x64.size a
  hwx2_1 : ∀ i : grid2.Coords, EltTy.bits .bf16 = 32 ∨ (Rect.block (s := S16384x64) S2048x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x64.size a ≤ S16384x64.size a
  hwx2_4 : ∀ i : grid2.Coords, EltTy.bits .bf16 = 32 ∨ (Rect.block (s := S16384x64) S1024x64.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S16384.size a
  hwx2_5 : ∀ i : grid2.Coords, EltTy.bits .f32 = 32 ∨ (Rect.block (s := S16384) S1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32x16384.size a ≤ S512x16384.size a
  hwx3_0 : ∀ i : grid3.Coords, EltTy.bits .f32 = 32 ∨ (Rect.block (s := S512x16384) S32x16384.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S32x16384.size a ≤ S512x16384.size a
  hwx3_1 : ∀ i : grid3.Coords, EltTy.bits .f32 = 32 ∨ (Rect.block (s := S512x16384) S32x16384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16384.size a ≤ S1x16384.size a
  hwx3_2 : ∀ i : grid3.Coords, EltTy.bits .f32 = 32 ∨ (Rect.block (s := S1x16384) S1x16384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16384x64.size a ≤ S16384x64.size a
  hwx3_3 : ∀ i : grid3.Coords, EltTy.bits .bf16 = 32 ∨ (Rect.block (s := S16384x64) S16384x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S32x16384.size a ≤ S512x16384.size a
  hwx3_4 : ∀ i : grid3.Coords, EltTy.bits .f32 = 32 ∨ (Rect.block (s := S512x16384) S32x16384.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S32x64.size a ≤ S512x64.size a
  hwx3_5 : ∀ i : grid3.Coords, EltTy.bits .f32 = 32 ∨ (Rect.block (s := S512x64) S32x64.size (cc3_transform_5 i) (hinb3_5 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S32x16384_S16384x64_S32x64_1_0_0_1_n_n : DotDims S32x16384 S16384x64 S32x64 where
  lhsContracting := [1]
  rhsContracting := [0]
  lhsNonContracting := [0]
  rhsNonContracting := [1]
  lhsBatch := []
  rhsBatch := []
  wf := dot_S32x16384_S16384x64_S32x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5_0) S1024x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v5_1) S1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_arg2) S32x16384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S32x16384.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x16384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5_0) S16384x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7_0) S32x16384.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v7_1) S32x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S512x16384 : Shape := ⟨2, ![512, 16384]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩
abbrev S64x1 : Shape := ⟨2, ![64, 1]⟩
abbrev S16384x1 : Shape := ⟨2, ![16384, 1]⟩
abbrev S1x1 : Shape := ⟨2, ![1, 1]⟩
abbrev S16384 : Shape := ⟨1, ![16384]⟩
abbrev S1x16384 : Shape := ⟨2, ![1, 16384]⟩
abbrev S512 : Shape := ⟨1, ![512]⟩
abbrev S512x1 : Shape := ⟨2, ![512, 1]⟩
abbrev S512x64 : Shape := ⟨2, ![512, 64]⟩

abbrev nBuf : Space → Nat
  | .hbm => 56
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S512x16384, .f32⟩
  | .hbm, ⟨3, _⟩ => ⟨S512x16384, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S64x64, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S_, .f32⟩
  | .hbm, ⟨18, _⟩ => ⟨S16384x64, .f32⟩
  | .hbm, ⟨19, _⟩ => ⟨S16384x64, .i1⟩
  | .hbm, ⟨20, _⟩ => ⟨S_, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S64x64, .f32⟩
  | .hbm, ⟨25, _⟩ => ⟨S16384x64, .f32⟩
  | .hbm, ⟨26, _⟩ => ⟨S1x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S64x1, .f32⟩
  | .hbm, ⟨32, _⟩ => ⟨S16384x1, .f32⟩
  | .hbm, ⟨33, _⟩ => ⟨S1x1, .f32⟩
  | .hbm, ⟨34, _⟩ => ⟨S16384x1, .f32⟩
  | .hbm, ⟨35, _⟩ => ⟨S16384x1, .f32⟩
  | .hbm, ⟨36, _⟩ => ⟨S16384, .f32⟩
  | .hbm, ⟨37, _⟩ => ⟨S1x16384, .f32⟩
  | .hbm, ⟨38, _⟩ => ⟨S512x16384, .f32⟩
  | .hbm, ⟨39, _⟩ => ⟨S512x16384, .f32⟩
  | .hbm, ⟨40, _⟩ => ⟨S512x16384, .f32⟩
  | .hbm, ⟨41, _⟩ => ⟨S_, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S512x1, .f32⟩
  | .hbm, ⟨47, _⟩ => ⟨S512x16384, .f32⟩
  | .hbm, ⟨48, _⟩ => ⟨S512x16384, .f32⟩
  | .hbm, ⟨49, _⟩ => ⟨S512x16384, .f32⟩
  | .hbm, ⟨50, _⟩ => ⟨S_, .f32⟩
  | .hbm, ⟨51, _⟩ => ⟨S512, .f32⟩
  | .hbm, ⟨52, _⟩ => ⟨S512x1, .f32⟩
  | .hbm, ⟨53, _⟩ => ⟨S512x16384, .f32⟩
  | .hbm, ⟨54, _⟩ => ⟨S512x16384, .f32⟩
  | .hbm, ⟨55, _⟩ => ⟨S512x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S1x64_S64x1_1_0 : S1x64.Transposes [1, 0] S64x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  bcast_S16384_S1x16384_1 : S16384.BroadcastsInDim S1x16384 (![1] : Fin 1 → Fin S1x16384.rank)
  bcast_S1x16384_S512x16384_0_1 : S1x16384.BroadcastsInDim S512x16384 (![0, 1] : Fin 2 → Fin S512x16384.rank)
  reducesTo_S512x16384_S512_d1 : S512x16384.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x16384_0_1 : S512x1.BroadcastsInDim S512x16384 (![0, 1] : Fin 2 → Fin S512x16384.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  dot_S16384x64_S64x1_S16384x1_1_0_0_1_n_n_wf : DotDims.WF S16384x64 S64x1 S16384x1 [1] [0] [0] [1] [] []
  dot_S512x16384_S16384x64_S512x64_1_0_0_1_n_n_wf : DotDims.WF S512x16384 S16384x64 S512x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf
def dot_S512x16384_S16384x64_S512x64_1_0_0_1_n_n : DotDims S512x16384 S16384x64 S512x64 where
  lhsContracting := [1]
  rhsContracting := [0]
  lhsNonContracting := [0]
  rhsNonContracting := [1]
  lhsBatch := []
  rhsBatch := []
  wf := dot_S512x16384_S16384x64_S512x64_1_0_0_1_n_n_wf

class Facts : Prop extends Facts₀ where

variable [Facts]
-- ==== Proof.K.Reg0.lean ====
import proofs.«404698_j11304353923438_3_alg».proof.Proof.Gen.Kernel.Launch
import proofs.«404698_j11304353923438_3_alg».proof.Proof.Gen.Kernel.Skeleton
import proofs.«404698_j11304353923438_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

-- The block of window `w`'s array at grid point `t`, read off the region's entry contents.
def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x64 := Rect.unit (s := S2048x64) ![0, 0] S2048x64.size inb_S2048x64_S2048x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

-- What the body leaves in the output buffer, as a function of the three input blocks.
def out0_3 (x0 : Vec F S2048x64 .f32) (x1 : Vec F S64x64 .f32) (x2 : Vec F S1x64 .f32) : Vec F S2048x64 .bf16 :=
  View.canon [⟨r0_0, k0_pay1 (View.ld x0 r0_0) (View.ld x1 r0_1) (View.ld x2 r0_2)⟩]

set_option maxHeartbeats 1000000 in
-- On whole buffers the body keeps the inputs and leaves `out0_3` of them in the output: its single store covers the buffer.
theorem sound_kernel0 (E : Set ℕ) (i : grid0.Coords) (arg1 : Memref sig .tc .vmem S2048x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S2048x64 .bf16) (harg4 : arg4.IsWhole)
    (x0 : Vec F S2048x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (View.cover_of_tiled _ S2048x64.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := by dsimp only [dat0]
theorem after0_3 : (dat0 V c).after 3 t = out0_3 (iblk0 V c 0 t) (iblk0 V c 1 t) (iblk0 V c 2 t) := by dsimp only [dat0]

-- Before the body runs at `t` each input buffer holds that point's block, because the body leaves every input block in place.
theorem before0_of (dat : Dat τ (Elt F) Unit ℕ (UR sig nD τ) ℕ cfg0 c) (hA : ∀ w, dat.A w = V c (Pipeline.arrRef spec0 w))
    (h0 : ∀ t, dat.after 0 t = iblk0 V c 0 t) (h1 : ∀ t, dat.after 1 t = iblk0 V c 1 t) (h2 : ∀ t, dat.after 2 t = iblk0 V c 2 t) :
    (∀ d, dat.before 0 t d = iblk0 V c 0 t) ∧ (∀ d, dat.before 1 t d = iblk0 V c 1 t) ∧ ∀ d, dat.before 2 t d = iblk0 V c 2 t := by
  refine ⟨?_, ?_, ?_⟩ <;> exact fun d =>
    (dat.before_in_eq_fetched _ rfl (fun _ => rfl) (fun _ _ _ => rfl) (fun t => by (first | rw [h0] | rw [h1] | rw [h2]); unfold Dat.blockOf iblk0; rw [hA]; try rfl) t d).trans
      (by unfold Dat.fetched Dat.blockOf iblk0; rw [hA]; try rfl)

-- At every point the body's triple applies to that point's input blocks.
theorem body_obligation0 : BodyObligation (dat0 (F := F) V c) (defs₀ (F := F)) Variants.none () Set.univ := fun t => by
  rw [bigSep_W0, bigSep_W0]
  obtain ⟨b0, b1, b2⟩ := before0_of V c t (dat0 V c) (A_eq0 V c) (fun _ => by dsimp only [dat0]) (fun _ => by dsimp only [dat0]) fun _ => by dsimp only [dat0]
  simp only [b0, b1, b2]
  dsimp only [dat0]
  show _ ⊢ wp _ _ _ (bodyAt0 t) _
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  iframe H0 H1 H2
  isplitl [H3]; · iexists _; iexact H3
  iintro ⟨H0, H1, H2, H3⟩
  iframe; iexact Ho

theorem hin0 : (Pipeline.ΦA spec0 c : sProp 𝕄) ⊢ (dat0 V c).Φ 0 := .rfl
theorem hout0 : (dat0 V c).Φ (Fin.last cfg0.N) ⊢ (Pipeline.ΦA spec0 c : sProp 𝕄) := .rfl

end Cert.Kernel.Hand

end
-- ==== Proof.K.Reg1.lean ====
import proofs.«404698_j11304353923438_3_alg».proof.Proof.Gen.Kernel.Launch
import proofs.«404698_j11304353923438_3_alg».proof.Proof.Gen.Kernel.Skeleton
import proofs.«404698_j11304353923438_3_alg».proof.Proof.Gen.Kernel.Points
import Idealize.ShloMosaic.Lib.Pipeline.FrameBody
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem live1 : ∀ t : Fin cfg1.N, cfg1.idle 0 (grid1.coords t) = false ∧ cfg1.idle 1 (grid1.coords t) = false ∧ cfg1.idle 2 (grid1.coords t) = false ∧ cfg1.idle 3 (grid1.coords t) = false := by decide +kernel
theorem idle1 : ∀ t : Fin cfg1.N, ¬t.val % 8 = 7 → cfg1.idle 4 (grid1.coords t) = true ∧ (cfg1.win 4).flush t = false := by decide +kernel
theorem live1_C : ∀ t : Fin cfg1.N, t.val % 8 = 7 → cfg1.idle 4 (grid1.coords t) = false := by decide +kernel

abbrev ms1_0 (t : Fin cfg1.N) : Memref sig .tc .vmem S1024x2048 .f32 := win1_0.stage (cfg1.slots t 0)
abbrev ms1_1 (t : Fin cfg1.N) : Memref sig .tc .vmem S2048x64 .bf16 := win1_1.stage (cfg1.slots t 1)
abbrev ms1_2 (t : Fin cfg1.N) : Memref sig .tc .vmem S64x64 .f32 := win1_2.stage (cfg1.slots t 2)
abbrev ms1_3 (t : Fin cfg1.N) : Memref sig .tc .vmem S1x64 .f32 := win1_3.stage (cfg1.slots t 3)
abbrev ms1_4 (t : Fin cfg1.N) : Memref sig .tc .vmem S1024x64 .bf16 := win1_4.stage (cfg1.slots t 4)
abbrev scM1_0 : Memref sig .tc .vmem S1024x64 .f32 := Memref.whole cc1_scratch0

theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

theorem hz1_2 : (![0, 0] : Fin 2 → Nat) = fun _ => 0 := funext fun a => by fin_cases a <;> rfl

section Run
variable (c : Dev nD) (i : grid1.Coords) (arg2 : Memref sig .tc .vmem S1024x2048 .f32) (harg2 : arg2.IsWhole) (arg3 : Memref sig .tc .vmem S2048x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .bf16) (harg6 : arg6.IsWhole) (arg7 : Memref sig .tc .vmem S1024x64 .f32) (harg7 : arg7.IsWhole)
  (x0 : Vec F S1024x2048 .f32) (x1 : Vec F S2048x64 .bf16) (x2 : Vec F S64x64 .f32) (x3 : Vec F S1x64 .f32)

-- The body between the four input buffers at their blocks (handed back as found) and what else it is given, `P`, and leaves, `Q`.
def Run1 (P Q : sProp 𝕄) : Prop := ∀ (E : Set ℕ) (K : PUnit → sProp 𝕄),
  iprop(owns (c : Thread nD τ) arg2 fullShare x0 ∗ owns (c : Thread nD τ) arg3 fullShare x1 ∗ owns (c : Thread nD τ) arg4 fullShare x2 ∗ owns (c : Thread nD τ) arg5 fullShare x3 ∗ P
      ∗ (iprop(owns (c : Thread nD τ) arg2 fullShare x0 ∗ owns (c : Thread nD τ) arg3 fullShare x1 ∗ owns (c : Thread nD τ) arg4 fullShare x2 ∗ owns (c : Thread nD τ) arg5 fullShare x3 ∗ Q) -∗ K ⟨⟩))
    ⊢ wp frame (wpE (defs₀ (F := F)) Variants.none c none) E (cc1__gcn_kernel_l1 i arg2 harg2 arg3 harg3 arg4 harg4 arg5 harg5 arg6 harg6 arg7 harg7) K

set_option maxHeartbeats 1000000 in
-- Second coordinate 0: the accumulator is zeroed, then the block product is added.
theorem run1_A (hc0 : cond1_0 i) (hc1 : ¬cond1_1 i) :
    Run1 c i arg2 harg2 arg3 harg3 arg4 harg4 arg5 harg5 arg6 harg6 arg7 harg7 x0 x1 x2 x3 iprop(∃ d, owns (c : Thread nD τ) arg7 fullShare d) (owns (c : Thread nD τ) arg7 fullShare (k1_pay2 x0 x1 (k1_pay1 (F := F)))) := by
  intro E K
  simp only [cc1__gcn_kernel_l1_eq_skeleton, owns_eq_rep]; unfold cc1__gcn_kernel_l1_skel
  iintro ⟨H0, H1, H2, H3, ⟨%d, HS0⟩, Hk⟩
  sl_exec (disch := first | exact hc0 | exact hc1)
  sl_step
  iapply Hk
  iframe
  iapply (rep_of_owns (c : Thread nD τ) arg7 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_cons_unit_zero (S := S1024x64) hz1_2, View.readCov_unit_zero (S := S1024x64) _ hz1_2]
  simp only [View.readAt_eq_ld, View.read_rep, View.ld_unit_zero (S := S1024x2048) hz1_2, View.ld_unit_zero (S := S2048x64) hz1_2, View.ld_unit_zero (S := S1024x64) hz1_2, View.ld_unit_zero (S := S64x64) hz1_2, View.ld_unit_zero (S := S1x64) hz1_2]

set_option maxHeartbeats 1000000 in
-- Second coordinate strictly between 0 and 7: the block product is added to what the accumulator held.
theorem run1_B (hc0 : ¬cond1_0 i) (hc1 : ¬cond1_1 i) (xs0 : Vec F S1024x64 .f32) :
    Run1 c i arg2 harg2 arg3 harg3 arg4 harg4 arg5 harg5 arg6 harg6 arg7 harg7 x0 x1 x2 x3 (owns (c : Thread nD τ) arg7 fullShare xs0) (owns (c : Thread nD τ) arg7 fullShare (k1_pay2 x0 x1 xs0)) := by
  intro E K
  simp only [cc1__gcn_kernel_l1_eq_skeleton, owns_eq_rep]; unfold cc1__gcn_kernel_l1_skel
  iintro ⟨H0, H1, H2, H3, HS0, Hk⟩
  sl_exec (disch := first | exact hc0 | exact hc1)
  sl_step
  iapply Hk
  iframe
  iapply (rep_of_owns (c : Thread nD τ) arg7 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_unit_zero hz1_2]
  simp only [View.readAt_eq_ld, View.read_rep, View.ld_unit_zero (S := S1024x2048) hz1_2, View.ld_unit_zero (S := S2048x64) hz1_2, View.ld_unit_zero (S := S1024x64) hz1_2, View.ld_unit_zero (S := S64x64) hz1_2, View.ld_unit_zero (S := S1x64) hz1_2]

set_option maxHeartbeats 1000000 in
-- Second coordinate 7: after the last block product the output is stored from the accumulator.
theorem run1_C (hc0 : ¬cond1_0 i) (hc1 : cond1_1 i) (xs0 : Vec F S1024x64 .f32) :
    Run1 c i arg2 harg2 arg3 harg3 arg4 harg4 arg5 harg5 arg6 harg6 arg7 harg7 x0 x1 x2 x3 iprop((∃ d, owns (c : Thread nD τ) arg6 fullShare d) ∗ owns (c : Thread nD τ) arg7 fullShare xs0)
      iprop(owns (c : Thread nD τ) arg6 fullShare (k1_pay3 (k1_pay2 x0 x1 xs0) x2 x3) ∗ owns (c : Thread nD τ) arg7 fullShare (k1_pay2 x0 x1 xs0)) := by
  intro E K
  simp only [cc1__gcn_kernel_l1_eq_skeleton, owns_eq_rep]; unfold cc1__gcn_kernel_l1_skel
  iintro ⟨H0, H1, H2, H3, ⟨⟨%d4, H4⟩, HS0⟩, Hk⟩
  sl_exec (disch := first | exact hc0 | exact hc1)
  sl_step
  iapply Hk
  iframe
  isplitl [H4]
  · iapply (rep_of_owns (c : Thread nD τ) arg6 fullShare _)
    unfold owns; iexists _; isplitr
    swap; · iexact H4
    ipureintro
    refine (View.read_writes_eq_canon _ _ _ ?cov).trans ?_
    case cov => exact View.cover_of_tiledL _ S1024x64.size (by sl_kernel_rfl)
    sl_unfold_words
    rw [View.canon_unit_zero hz1_2]
    simp only [View.readCov_unit_zero (S := S1024x64) _ hz1_2, View.readAt_eq_ld, View.read_rep, View.ld_unit_zero (S := S1024x2048) hz1_2, View.ld_unit_zero (S := S2048x64) hz1_2, View.ld_unit_zero (S := S1024x64) hz1_2, View.ld_unit_zero (S := S64x64) hz1_2, View.ld_unit_zero (S := S1x64) hz1_2]
  iapply (rep_of_owns (c : Thread nD τ) arg7 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_unit_zero hz1_2]
  simp only [View.readAt_eq_ld, View.read_rep, View.ld_unit_zero (S := S1024x2048) hz1_2, View.ld_unit_zero (S := S2048x64) hz1_2, View.ld_unit_zero (S := S1024x64) hz1_2, View.ld_unit_zero (S := S64x64) hz1_2, View.ld_unit_zero (S := S1x64) hz1_2]

end Run

-- The accumulator after point n: the block product added to zeros where n ≡ 0 (mod 8), else to what point n - 1 left.
def acc1 (c : Dev nD) : (n : ℕ) → n < cfg1.N → Vec F S1024x64 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩) (if (n + 1) % 8 = 0 then k1_pay1 else acc1 c n (Nat.lt_of_succ_lt hn))

theorem acc1_eq (c : Dev nD) (t : Fin cfg1.N) :
    acc1 V c t.val t.isLt = k1_pay2 (iblk1 V c 0 t) (iblk1 V c 1 t) (if t.val % 8 = 0 then k1_pay1 else acc1 V c (t.val - 1) (Nat.lt_of_le_of_lt (Nat.sub_le _ _) t.isLt)) := by
  obtain ⟨_ | n, hn⟩ := t <;> rfl

-- The region's invariant with the accumulator held as `P`.
def PhiP1 (c : Dev nD) (P : sProp 𝕄) : sProp 𝕄 := iprop(iprop(P ∗ Pipeline.scopedRestBut spec1 c [cc1_scratch0]) ∗ (∃ r, prngReg c r))

def PhiS1 (c : Dev nD) : (n : ℕ) → n ≤ cfg1.N → sProp 𝕄
  | 0, _ => Pipeline.ΦA spec1 c
  | n + 1, hn => PhiP1 c (owns (c : Thread nD τ) scM1_0 fullShare (acc1 V c n hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 2 t) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem Phi_pos1 (c : Dev nD) (t : Fin cfg1.N) (hz : t.val ≠ 0) :
    (dat1 V c).Φ t.castSucc = PhiP1 c (owns (c : Thread nD τ) scM1_0 fullShare (acc1 V c (t.val - 1) (Nat.lt_of_le_of_lt (Nat.sub_le _ _) t.isLt))) := by
  obtain ⟨_ | n, hn⟩ := t
  · exact absurd rfl hz
  · rfl

-- After any point the accumulator's contents can be forgotten.
theorem Phi_out1 (c : Dev nD) (t : Fin (cfg1.N + 1)) : (dat1 V c).Φ t ⊢ (Pipeline.ΦA spec1 c : sProp 𝕄) := by
  obtain ⟨_ | n, hn⟩ := t
  · exact .rfl
  · rw [PhiA1_eq]; show PhiP1 c _ ⊢ _; unfold PhiP1
    iintro ⟨⟨HS0, Hr⟩, Hg⟩; iframe; iexists _; iexact HS0

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := Phi_out1 V c _

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
-- At every point the body returns the inputs, and the output where it does not store into it, unchanged, and takes the accumulator from what the point before left to `acc1`.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨l0, l1, l2, l3⟩ := live1 t
  have hN : t.val < 128 := lt_of_lt_of_eq t.isLt N_1
  simp only [before1_0, before1_1, before1_2, before1_3]
  rw [show (dat1 V c).owesAt () t.succ = (dat1 V c).owesAt () t.castSucc from rfl,
    show (dat1 V c).Φ t.succ = PhiP1 c (owns (c : Thread nD τ) scM1_0 fullShare (acc1 V c t.val t.isLt)) from rfl,
    show (dat1 V c).leavesExact 0 t = owns (c : Thread nD τ) (ms1_0 t) fullShare (iblk1 V c 0 t) from by unfold Dat.leavesExact; rw [l0]; try rfl,
    show (dat1 V c).leavesExact 1 t = owns (c : Thread nD τ) (ms1_1 t) fullShare (iblk1 V c 1 t) from by unfold Dat.leavesExact; rw [l1]; try rfl,
    show (dat1 V c).leavesExact 2 t = owns (c : Thread nD τ) (ms1_2 t) fullShare (iblk1 V c 2 t) from by unfold Dat.leavesExact; rw [l2]; try rfl,
    show (dat1 V c).leavesExact 3 t = owns (c : Thread nD τ) (ms1_3 t) fullShare (iblk1 V c 3 t) from by unfold Dat.leavesExact; rw [l3]; try rfl]
  by_cases h7 : t.val % 8 = 7
  · have l4 := live1_C t h7
    have h0 : ¬t.val % 8 = 0 := by omega
    rw [show (dat1 V c).leavesExact 4 t = owns (c : Thread nD τ) (ms1_4 t) fullShare (k1_pay3 (acc1 V c t.val t.isLt) (iblk1 V c 2 t) (iblk1 V c 3 t)) from by unfold Dat.leavesExact; rw [l4]; try rfl,
      acc1_eq, if_neg h0, Phi_pos1 V c t (by omega)]
    generalize acc1 V c (t.val - 1) _ = a
    unfold PhiP1
    iintro ⟨⟨⟨HS0, Hr⟩, Hg⟩, Ho, ⟨%d0, H0⟩, ⟨%d1, H1⟩, ⟨%d2, H2⟩, ⟨%d3, H3⟩, ⟨%d4, H4⟩⟩
    iapply (run1_C c (grid1.coords t) _ _ _ _ _ _ _ _ _ _ _ _ (iblk1 V c 0 t) (iblk1 V c 1 t) (iblk1 V c 2 t) (iblk1 V c 3 t) (fun h => h0 ((hcond1_0 t).mp h)) ((hcond1_1 t).mpr h7) a Set.univ _)
    iframe H0 H1 H2 H3 HS0
    isplitl [H4]; · iexists _; iexact H4
    iintro ⟨H0, H1, H2, H3, H4, HS0⟩
    iframe
  · obtain ⟨i4, f4⟩ := idle1 t h7
    rw [Dat.leavesExact_idle (dat1 V c) 4 t i4 f4, acc1_eq]
    by_cases h0 : t.val % 8 = 0
    · rw [if_pos h0]
      refine (sep_mono_left (Phi_out1 V c t.castSucc)).trans ?_
      rw [PhiA1_eq]; unfold PhiP1
      iintro ⟨⟨⟨HS0, Hr⟩, Hg⟩, Ho, ⟨%d0, H0⟩, ⟨%d1, H1⟩, ⟨%d2, H2⟩, ⟨%d3, H3⟩, H4⟩
      iapply (run1_A c (grid1.coords t) _ _ _ _ _ _ _ _ _ _ _ _ (iblk1 V c 0 t) (iblk1 V c 1 t) (iblk1 V c 2 t) (iblk1 V c 3 t) ((hcond1_0 t).mpr h0) (fun h => h7 ((hcond1_1 t).mp h)) Set.univ _)
      iframe H0 H1 H2 H3 HS0
      iintro ⟨H0, H1, H2, H3, HS0⟩
      iframe
    · rw [if_neg h0, Phi_pos1 V c t (by omega)]
      generalize acc1 V c (t.val - 1) _ = a
      unfold PhiP1
      iintro ⟨⟨⟨HS0, Hr⟩, Hg⟩, Ho, ⟨%d0, H0⟩, ⟨%d1, H1⟩, ⟨%d2, H2⟩, ⟨%d3, H3⟩, H4⟩
      iapply (run1_B c (grid1.coords t) _ _ _ _ _ _ _ _ _ _ _ _ (iblk1 V c 0 t) (iblk1 V c 1 t) (iblk1 V c 2 t) (iblk1 V c 3 t) (fun h => h0 ((hcond1_0 t).mp h)) (fun h => h7 ((hcond1_1 t).mp h)) a Set.univ _)
      iframe H0 H1 H2 H3 HS0
      iintro ⟨H0, H1, H2, H3, HS0⟩
      iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«404698_j11304353923438_3_alg».proof.Proof.Gen.Kernel.Launch
import proofs.«404698_j11304353923438_3_alg».proof.Proof.Gen.Kernel.Skeleton
import proofs.«404698_j11304353923438_3_alg».proof.Proof.Gen.Kernel.Points
import Idealize.ShloMosaic.Lib.Pipeline.FrameBody
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem live2 : ∀ t : Fin cfg2.N, cfg2.idle 0 (grid2.coords t) = false ∧ cfg2.idle 1 (grid2.coords t) = false ∧ cfg2.idle 2 (grid2.coords t) = false ∧ cfg2.idle 3 (grid2.coords t) = false := by decide +kernel
theorem idle2 : ∀ t : Fin cfg2.N, ¬t.val % 8 = 7 → (cfg2.idle 4 (grid2.coords t) = true ∧ (cfg2.win 4).flush t = false) ∧ cfg2.idle 5 (grid2.coords t) = true ∧ (cfg2.win 5).flush t = false := by decide +kernel
theorem live2_C : ∀ t : Fin cfg2.N, t.val % 8 = 7 → cfg2.idle 4 (grid2.coords t) = false ∧ cfg2.idle 5 (grid2.coords t) = false := by decide +kernel

abbrev ms2_0 (t : Fin cfg2.N) : Memref sig .tc .vmem S1024x2048 .f32 := win2_0.stage (cfg2.slots t 0)
abbrev ms2_1 (t : Fin cfg2.N) : Memref sig .tc .vmem S2048x64 .bf16 := win2_1.stage (cfg2.slots t 1)
abbrev ms2_2 (t : Fin cfg2.N) : Memref sig .tc .vmem S1x64 .f32 := win2_2.stage (cfg2.slots t 2)
abbrev ms2_3 (t : Fin cfg2.N) : Memref sig .tc .vmem S1x1 .f32 := win2_3.stage (cfg2.slots t 3)
abbrev ms2_4 (t : Fin cfg2.N) : Memref sig .tc .vmem S1024x64 .bf16 := win2_4.stage (cfg2.slots t 4)
abbrev ms2_5 (t : Fin cfg2.N) : Memref sig .tc .vmem S1024 .f32 := win2_5.stage (cfg2.slots t 5)
abbrev scM2_0 : Memref sig .tc .vmem S1024x64 .f32 := Memref.whole cc2_scratch0

theorem PhiA2_eq (c : Dev nD) :
    (Pipeline.ΦA spec2 c : sProp 𝕄)
      = iprop(iprop(iprop((∃ d, owns (c : Thread nD τ) scM2_0 fullShare d)) ∗ Pipeline.scopedRestBut spec2 c [cc2_scratch0]) ∗ (∃ r, prngReg c r)) := by
  unfold Pipeline.ΦA; rw [scopedRest2_split]; simp only [scM2_0, owns_whole]; try rfl

theorem hz2_2 : (![0, 0] : Fin 2 → Nat) = fun _ => 0 := funext fun a => by fin_cases a <;> rfl
theorem hz2_1 : (![0] : Fin 1 → Nat) = fun _ => 0 := funext fun a => by fin_cases a <;> rfl

section Run
variable (c : Dev nD) (i : grid2.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1x1 .f32) (harg5 : arg5.IsWhole) (arg6 : Memref sig .tc .vmem S1024x64 .bf16) (harg6 : arg6.IsWhole) (arg7 : Memref sig .tc .vmem S1024 .f32) (harg7 : arg7.IsWhole) (arg8 : Memref sig .tc .vmem S1024x64 .f32) (harg8 : arg8.IsWhole)
  (x0 : Vec F S1024x2048 .f32) (x1 : Vec F S2048x64 .bf16) (x2 : Vec F S1x64 .f32) (x3 : Vec F S1x1 .f32)

-- The body between the four input buffers at their blocks (handed back as found) and what else it is given, `P`, and leaves, `Q`.
def Run2 (P Q : sProp 𝕄) : Prop := ∀ (E : Set ℕ) (K : PUnit → sProp 𝕄),
  iprop(owns (c : Thread nD τ) arg2 fullShare x0 ∗ owns (c : Thread nD τ) arg3 fullShare x1 ∗ owns (c : Thread nD τ) arg4 fullShare x2 ∗ owns (c : Thread nD τ) arg5 fullShare x3 ∗ P
      ∗ (iprop(owns (c : Thread nD τ) arg2 fullShare x0 ∗ owns (c : Thread nD τ) arg3 fullShare x1 ∗ owns (c : Thread nD τ) arg4 fullShare x2 ∗ owns (c : Thread nD τ) arg5 fullShare x3 ∗ Q) -∗ K ⟨⟩))
    ⊢ wp frame (wpE (defs₀ (F := F)) Variants.none c none) E (cc2__gcn_kernel_l2 i arg2 harg2 arg3 harg3 arg4 harg4 arg5 harg5 arg6 harg6 arg7 harg7 arg8 harg8) K

set_option maxHeartbeats 1000000 in
-- Second coordinate 0: the accumulator is zeroed, then the block product is added.
theorem run2_A (hc0 : cond2_0 i) (hc1 : ¬cond2_1 i) :
    Run2 c i arg2 harg2 arg3 harg3 arg4 harg4 arg5 harg5 arg6 harg6 arg7 harg7 arg8 harg8 x0 x1 x2 x3 iprop(∃ d, owns (c : Thread nD τ) arg8 fullShare d) (owns (c : Thread nD τ) arg8 fullShare (k2_pay2 x0 x1 (k2_pay1 (F := F)))) := by
  intro E K
  simp only [cc2__gcn_kernel_l2_eq_skeleton, owns_eq_rep]; unfold cc2__gcn_kernel_l2_skel
  iintro ⟨H0, H1, H2, H3, ⟨%d, HS0⟩, Hk⟩
  sl_exec (disch := first | exact hc0 | exact hc1)
  sl_step
  iapply Hk
  iframe
  iapply (rep_of_owns (c : Thread nD τ) arg8 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_cons_unit_zero (S := S1024x64) hz2_2, View.readCov_unit_zero (S := S1024x64) _ hz2_2]
  simp only [View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]

set_option maxHeartbeats 1000000 in
-- Second coordinate strictly between 0 and 7: the block product is added to what the accumulator held.
theorem run2_B (hc0 : ¬cond2_0 i) (hc1 : ¬cond2_1 i) (xs0 : Vec F S1024x64 .f32) :
    Run2 c i arg2 harg2 arg3 harg3 arg4 harg4 arg5 harg5 arg6 harg6 arg7 harg7 arg8 harg8 x0 x1 x2 x3 (owns (c : Thread nD τ) arg8 fullShare xs0) (owns (c : Thread nD τ) arg8 fullShare (k2_pay2 x0 x1 xs0)) := by
  intro E K
  simp only [cc2__gcn_kernel_l2_eq_skeleton, owns_eq_rep]; unfold cc2__gcn_kernel_l2_skel
  iintro ⟨H0, H1, H2, H3, HS0, Hk⟩
  sl_exec (disch := first | exact hc0 | exact hc1)
  sl_step
  iapply Hk
  iframe
  iapply (rep_of_owns (c : Thread nD τ) arg8 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_unit_zero hz2_2]
  simp only [View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]

set_option maxHeartbeats 1000000 in
-- Second coordinate 7: after the last block product the two outputs are stored from the accumulator.
theorem run2_C (hc0 : ¬cond2_0 i) (hc1 : cond2_1 i) (xs0 : Vec F S1024x64 .f32) :
    Run2 c i arg2 harg2 arg3 harg3 arg4 harg4 arg5 harg5 arg6 harg6 arg7 harg7 arg8 harg8 x0 x1 x2 x3 iprop((∃ d, owns (c : Thread nD τ) arg6 fullShare d) ∗ (∃ d, owns (c : Thread nD τ) arg7 fullShare d) ∗ owns (c : Thread nD τ) arg8 fullShare xs0)
      iprop(owns (c : Thread nD τ) arg6 fullShare (k2_pay4 (k2_pay2 x0 x1 xs0)) ∗ owns (c : Thread nD τ) arg7 fullShare (k2_pay5 (k2_pay2 x0 x1 xs0) x2 x3) ∗ owns (c : Thread nD τ) arg8 fullShare (k2_pay2 x0 x1 xs0)) := by
  intro E K
  simp only [cc2__gcn_kernel_l2_eq_skeleton, owns_eq_rep]; unfold cc2__gcn_kernel_l2_skel
  iintro ⟨H0, H1, H2, H3, ⟨⟨%d4, H4⟩, ⟨%d5, H5⟩, HS0⟩, Hk⟩
  sl_exec (disch := first | exact hc0 | exact hc1)
  sl_step
  iapply Hk
  iframe
  isplitl [H4]
  · iapply (rep_of_owns (c : Thread nD τ) arg6 fullShare _)
    unfold owns; iexists _; isplitr
    swap; · iexact H4
    ipureintro
    refine (View.read_writes_eq_canon _ _ _ ?cov).trans ?_
    case cov => exact View.cover_of_tiledL _ S1024x64.size (by sl_kernel_rfl)
    sl_unfold_words
    rw [View.canon_unit_zero hz2_2]
    simp only [View.readCov_unit_zero (S := S1024x64) _ hz2_2, View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]
  isplitl [H5]
  · iapply (rep_of_owns (c : Thread nD τ) arg7 fullShare _)
    unfold owns; iexists _; isplitr
    swap; · iexact H5
    ipureintro
    refine (View.read_writes_eq_canon _ _ _ ?cov).trans ?_
    case cov => exact View.cover_of_tiledL _ S1024.size (by sl_kernel_rfl)
    sl_unfold_words
    rw [View.canon_unit_zero hz2_1]
    simp only [View.readCov_unit_zero (S := S1024x64) _ hz2_2, View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]
  iapply (rep_of_owns (c : Thread nD τ) arg8 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_unit_zero hz2_2]
  simp only [View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]

end Run

-- The accumulator after point n: the block product added to zeros where n ≡ 0 (mod 8), else to what point n - 1 left.
def acc2 (c : Dev nD) : (n : ℕ) → n < cfg2.N → Vec F S1024x64 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩) (if (n + 1) % 8 = 0 then k2_pay1 else acc2 c n (Nat.lt_of_succ_lt hn))

theorem acc2_eq (c : Dev nD) (t : Fin cfg2.N) :
    acc2 V c t.val t.isLt = k2_pay2 (iblk2 V c 0 t) (iblk2 V c 1 t) (if t.val % 8 = 0 then k2_pay1 else acc2 V c (t.val - 1) (Nat.lt_of_le_of_lt (Nat.sub_le _ _) t.isLt)) := by
  obtain ⟨_ | n, hn⟩ := t <;> rfl

-- The region's invariant with the accumulator held as `P`.
def PhiP2 (c : Dev nD) (P : sProp 𝕄) : sProp 𝕄 := iprop(iprop(P ∗ Pipeline.scopedRestBut spec2 c [cc2_scratch0]) ∗ (∃ r, prngReg c r))

def PhiS2 (c : Dev nD) : (n : ℕ) → n ≤ cfg2.N → sProp 𝕄
  | 0, _ => Pipeline.ΦA spec2 c
  | n + 1, hn => PhiP2 c (owns (c : Thread nD τ) scM2_0 fullShare (acc2 V c n hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay4 (acc2 V c t.val t.isLt)
    | ⟨5, _⟩ => k2_pay5 (acc2 V c t.val t.isLt) (iblk2 V c 2 t) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem Phi_pos2 (c : Dev nD) (t : Fin cfg2.N) (hz : t.val ≠ 0) :
    (dat2 V c).Φ t.castSucc = PhiP2 c (owns (c : Thread nD τ) scM2_0 fullShare (acc2 V c (t.val - 1) (Nat.lt_of_le_of_lt (Nat.sub_le _ _) t.isLt))) := by
  obtain ⟨_ | n, hn⟩ := t
  · exact absurd rfl hz
  · rfl

-- After any point the accumulator's contents can be forgotten.
theorem Phi_out2 (c : Dev nD) (t : Fin (cfg2.N + 1)) : (dat2 V c).Φ t ⊢ (Pipeline.ΦA spec2 c : sProp 𝕄) := by
  obtain ⟨_ | n, hn⟩ := t
  · exact .rfl
  · rw [PhiA2_eq]; show PhiP2 c _ ⊢ _; unfold PhiP2
    iintro ⟨⟨HS0, Hr⟩, Hg⟩; iframe; iexists _; iexact HS0

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := Phi_out2 V c _

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
-- At every point the body returns the inputs, and an output it does not store into, unchanged, and takes the accumulator from what the point before left to `acc2`.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨l0, l1, l2, l3⟩ := live2 t
  have hN : t.val < 128 := lt_of_lt_of_eq t.isLt N_2
  simp only [before2_0, before2_1, before2_2, before2_3]
  rw [show (dat2 V c).owesAt () t.succ = (dat2 V c).owesAt () t.castSucc from rfl,
    show (dat2 V c).Φ t.succ = PhiP2 c (owns (c : Thread nD τ) scM2_0 fullShare (acc2 V c t.val t.isLt)) from rfl,
    show (dat2 V c).leavesExact 0 t = owns (c : Thread nD τ) (ms2_0 t) fullShare (iblk2 V c 0 t) from by unfold Dat.leavesExact; rw [l0]; try rfl,
    show (dat2 V c).leavesExact 1 t = owns (c : Thread nD τ) (ms2_1 t) fullShare (iblk2 V c 1 t) from by unfold Dat.leavesExact; rw [l1]; try rfl,
    show (dat2 V c).leavesExact 2 t = owns (c : Thread nD τ) (ms2_2 t) fullShare (iblk2 V c 2 t) from by unfold Dat.leavesExact; rw [l2]; try rfl,
    show (dat2 V c).leavesExact 3 t = owns (c : Thread nD τ) (ms2_3 t) fullShare (iblk2 V c 3 t) from by unfold Dat.leavesExact; rw [l3]; try rfl]
  by_cases h7 : t.val % 8 = 7
  · obtain ⟨l4, l5⟩ := live2_C t h7
    have h0 : ¬t.val % 8 = 0 := by omega
    rw [show (dat2 V c).leavesExact 4 t = owns (c : Thread nD τ) (ms2_4 t) fullShare (k2_pay4 (acc2 V c t.val t.isLt)) from by unfold Dat.leavesExact; rw [l4]; try rfl,
      show (dat2 V c).leavesExact 5 t = owns (c : Thread nD τ) (ms2_5 t) fullShare (k2_pay5 (acc2 V c t.val t.isLt) (iblk2 V c 2 t) (iblk2 V c 3 t)) from by unfold Dat.leavesExact; rw [l5]; try rfl,
      acc2_eq, if_neg h0, Phi_pos2 V c t (by omega)]
    generalize acc2 V c (t.val - 1) _ = a
    unfold PhiP2
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply (run2_C c (grid2.coords t) _ _ _ _ _ _ _ _ _ _ _ _ _ _ (iblk2 V c 0 t) (iblk2 V c 1 t) (iblk2 V c 2 t) (iblk2 V c 3 t) (fun h => h0 ((hcond2_0 t).mp h)) ((hcond2_1 t).mpr h7) a Set.univ _)
    iframe H0 H1 H2 H3 HS0
    isplitl [H4 H5]
    · isplitl [H4]; · iexists _; iexact H4
      iexists _; iexact H5
    iintro ⟨H0, H1, H2, H3, H4, H5, HS0⟩
    iframe
  · obtain ⟨⟨i4, f4⟩, i5, f5⟩ := idle2 t h7
    rw [Dat.leavesExact_idle (dat2 V c) 4 t i4 f4, Dat.leavesExact_idle (dat2 V c) 5 t i5 f5, acc2_eq]
    by_cases h0 : t.val % 8 = 0
    · rw [if_pos h0]
      refine (sep_mono_left (Phi_out2 V c t.castSucc)).trans ?_
      rw [PhiA2_eq]; unfold PhiP2
      iintro ⟨⟨⟨HS0, Hr⟩, Hg⟩, Ho, ⟨%d0, H0⟩, ⟨%d1, H1⟩, ⟨%d2, H2⟩, ⟨%d3, H3⟩, H4, H5⟩
      iapply (run2_A c (grid2.coords t) _ _ _ _ _ _ _ _ _ _ _ _ _ _ (iblk2 V c 0 t) (iblk2 V c 1 t) (iblk2 V c 2 t) (iblk2 V c 3 t) ((hcond2_0 t).mpr h0) (fun h => h7 ((hcond2_1 t).mp h)) Set.univ _)
      iframe H0 H1 H2 H3 HS0
      iintro ⟨H0, H1, H2, H3, HS0⟩
      iframe
    · rw [if_neg h0, Phi_pos2 V c t (by omega)]
      generalize acc2 V c (t.val - 1) _ = a
      unfold PhiP2
      iintro ⟨⟨⟨HS0, Hr⟩, Hg⟩, Ho, ⟨%d0, H0⟩, ⟨%d1, H1⟩, ⟨%d2, H2⟩, ⟨%d3, H3⟩, H4, H5⟩
      iapply (run2_B c (grid2.coords t) _ _ _ _ _ _ _ _ _ _ _ _ _ _ (iblk2 V c 0 t) (iblk2 V c 1 t) (iblk2 V c 2 t) (iblk2 V c 3 t) (fun h => h0 ((hcond2_0 t).mp h)) (fun h => h7 ((hcond2_1 t).mp h)) a Set.univ _)
      iframe H0 H1 H2 H3 HS0
      iintro ⟨H0, H1, H2, H3, HS0⟩
      iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«404698_j11304353923438_3_alg».proof.Proof.Gen.Kernel.Launch
import proofs.«404698_j11304353923438_3_alg».proof.Proof.Gen.Kernel.Skeleton
import proofs.«404698_j11304353923438_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg3.N)

-- The block of window `w`'s array at grid point `t`, read off the region's entry contents.
def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S32x16384 := Rect.unit (s := S32x16384) ![0, 0] S32x16384.size inb_S32x16384_S32x16384_0_0
abbrev r3_1 : Rect S1x16384 := Rect.unit (s := S1x16384) ![0, 0] S1x16384.size inb_S1x16384_S1x16384_0_0
abbrev r3_2 : Rect S16384x64 := Rect.unit (s := S16384x64) ![0, 0] S16384x64.size inb_S16384x64_S16384x64_0_0
abbrev r3_3 : Rect S32x64 := Rect.unit (s := S32x64) ![0, 0] S32x64.size inb_S32x64_S32x64_0_0

-- What the body leaves in the weight buffer: the row-wise softmax of the block's scores.
def out3_4 (x0 x1 : Vec F S32x16384 .f32) (x2 : Vec F S1x16384 .f32) : Vec F S32x16384 .f32 :=
  View.canon [⟨r3_0, k3_pay1 (View.ld x0 r3_0) (View.ld x1 r3_0) (View.ld x2 r3_1)⟩]

-- What the body leaves in the pooled buffer: those weights times the node features.
def out3_5 (x0 x1 : Vec F S32x16384 .f32) (x2 : Vec F S1x16384 .f32) (x3 : Vec F S16384x64 .bf16) : Vec F S32x64 .f32 :=
  View.canon [⟨r3_3, k3_pay2 (View.ld x0 r3_0) (View.ld x1 r3_0) (View.ld x2 r3_1) (View.ld x3 r3_2)⟩]

set_option maxHeartbeats 1000000 in
-- On whole buffers the body keeps the inputs and leaves `out3_4`, `out3_5` of them in the outputs: each single store covers its buffer.
theorem sound_kernel3 (E : Set ℕ) (i : grid3.Coords)
    (arg1 : Memref sig .tc .vmem S32x16384 .f32) (harg1 : arg1.IsWhole) (arg2 : Memref sig .tc .vmem S32x16384 .f32) (harg2 : arg2.IsWhole)
    (arg3 : Memref sig .tc .vmem S1x16384 .f32) (harg3 : arg3.IsWhole) (arg4 : Memref sig .tc .vmem S16384x64 .bf16) (harg4 : arg4.IsWhole)
    (arg5 : Memref sig .tc .vmem S32x16384 .f32) (harg5 : arg5.IsWhole) (arg6 : Memref sig .tc .vmem S32x64 .f32) (harg6 : arg6.IsWhole)
    (x0 x1 : Vec F S32x16384 .f32) (x2 : Vec F S1x16384 .f32) (x3 : Vec F S16384x64 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2) ∗ owns (c : Thread nD τ) arg6 fullShare (out3_5 x0 x1 x2 x3)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]
  · iexists _; iframe H4; ipureintro
    exact View.read_writes_eq_canon _ _ _ (View.cover_of_tiled _ S32x16384.size (by rfl))
  iexists _; iframe H5; ipureintro
  exact View.read_writes_eq_canon _ _ _ (View.cover_of_tiled _ S32x64.size (by rfl))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (w : Fin cfg3.W) : (dat3 V c).A w = V c (Pipeline.arrRef spec3 w) := by dsimp only [dat3]
theorem after3_4 : (dat3 V c).after 4 t = out3_4 (iblk3 V c 0 t) (iblk3 V c 1 t) (iblk3 V c 2 t) := by dsimp only [dat3]
theorem after3_5 : (dat3 V c).after 5 t = out3_5 (iblk3 V c 0 t) (iblk3 V c 1 t) (iblk3 V c 2 t) (iblk3 V c 3 t) := by dsimp only [dat3]

-- Before the body runs at `t` each input buffer holds that point's block, because the body leaves every input block in place.
theorem before3_of (dat : Dat τ (Elt F) Unit ℕ (UR sig nD τ) ℕ cfg3 c) (hA : ∀ w, dat.A w = V c (Pipeline.arrRef spec3 w))
    (h0 : ∀ t, dat.after 0 t = iblk3 V c 0 t) (h1 : ∀ t, dat.after 1 t = iblk3 V c 1 t) (h2 : ∀ t, dat.after 2 t = iblk3 V c 2 t)
    (h3 : ∀ t, dat.after 3 t = iblk3 V c 3 t) :
    (∀ d, dat.before 0 t d = iblk3 V c 0 t) ∧ (∀ d, dat.before 1 t d = iblk3 V c 1 t) ∧ (∀ d, dat.before 2 t d = iblk3 V c 2 t)
      ∧ ∀ d, dat.before 3 t d = iblk3 V c 3 t := by
  refine ⟨?_, ?_, ?_, ?_⟩ <;> exact fun d =>
    (dat.before_in_eq_fetched _ rfl (fun _ => rfl) (fun _ _ _ => rfl) (fun t => by (first | rw [h0] | rw [h1] | rw [h2] | rw [h3]); unfold Dat.blockOf iblk3; rw [hA]; try rfl) t d).trans
      (by unfold Dat.fetched Dat.blockOf iblk3; rw [hA]; try rfl)

-- At every point the body's triple applies to that point's input blocks.
theorem body_obligation3 : BodyObligation (dat3 (F := F) V c) (defs₀ (F := F)) Variants.none () Set.univ := fun t => by
  rw [bigSep_W3, bigSep_W3]
  obtain ⟨b0, b1, b2, b3⟩ := before3_of V c t (dat3 V c) (A_eq3 V c) (fun _ => by dsimp only [dat3]) (fun _ => by dsimp only [dat3])
    (fun _ => by dsimp only [dat3]) fun _ => by dsimp only [dat3]
  simp only [b0, b1, b2, b3]
  dsimp only [dat3]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  iframe H0 H1 H2 H3
  isplitl [H4]; · iexists _; iexact H4
  isplitl [H5]; · iexists _; iexact H5
  iintro ⟨H0, H1, H2, H3, H4, H5⟩
  iframe; iexact Ho

theorem hin3 : (Pipeline.ΦA spec3 c : sProp 𝕄) ⊢ (dat3 V c).Φ 0 := .rfl
theorem hout3 : (dat3 V c).Φ (Fin.last cfg3.N) ⊢ (Pipeline.ΦA spec3 c : sProp 𝕄) := .rfl

end Cert.Kernel.Hand

end
-- ==== Proof.K.Run.lean ====
import proofs.«404698_j11304353923438_3_alg».proof.Proof.K.Reg0
import proofs.«404698_j11304353923438_3_alg».proof.Proof.K.Reg1
import proofs.«404698_j11304353923438_3_alg».proof.Proof.K.Reg2
import proofs.«404698_j11304353923438_3_alg».proof.Proof.K.Reg3
import proofs.«404698_j11304353923438_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
abbrev V8 : (c : Dev nD) → (b : Ref sig .tc) → Buf (Elt F) ((c : Thread nD τ).loc b) := fun c b => W8 m ρ c b

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

section Region

variable (p : Fin 4) (lf : Pipeline.LaunchFacts (nD := nD) (τ := τ) cfgs p) (Wi : Dev nD → Valuation τ sig (Elt F)) (c : Dev nD)
  (hA : ∀ c w, (pdats m ρ p c).A w = Wi c (Proc.devRef .tc (Pipeline.arrRef (cfgs p).spec w)))

-- The contents at a region's exit: its arrays as the last grid point leaves them, every other buffer as at entry.
abbrev exitW : Valuation τ sig (Elt F) :=
  Pipeline.withArrays (cfgs p).spec c (Wi c) fun w => (pdats m ρ p c).arrAt w (cfgs p).N

include lf in
theorem exitW_arr (w : Fin (cfgs p).W) :
    exitW m ρ p Wi c (Proc.devRef .tc (Pipeline.arrRef (cfgs p).spec w)) = (pdats m ρ p c).arrAt w (cfgs p).N :=
  Pipeline.withArrays_arr _ lf.win.arr_inj c _ _ w

include lf hA in
-- Off the region's output arrays the exit contents are the entry contents.
theorem exitW_keep (b : Ref sig .tc) (hb : ∀ w, Pipeline.arrRef (cfgs p).spec w = b → ((cfgs p).win w).isOut = false) :
    exitW m ρ p Wi c (Proc.devRef .tc b) = Wi c (Proc.devRef .tc b) := by
  by_cases h : ∃ w, Pipeline.arrRef (cfgs p).spec w = b
  · obtain ⟨w, rfl⟩ := h
    exact (exitW_arr m ρ p lf Wi c w).trans (((pdats m ρ p c).arrAt_in w (hb w rfl) _).trans (hA c w))
  · exact Pipeline.withArrays_of_ne _ c _ _ b fun w e => h ⟨w, e⟩

end Region

variable (c : Dev nD) (b : Ref sig .tc)

theorem W2_arr (w : Fin cfg0.W) : W2 m ρ c (Proc.devRef .tc (Pipeline.arrRef spec0 w)) = (dat0 (V1 m ρ) c).arrAt w cfg0.N :=
  exitW_arr m ρ 0 launch0 _ c w
theorem W4_arr (w : Fin cfg1.W) : W4 m ρ c (Proc.devRef .tc (Pipeline.arrRef spec1 w)) = (dat1 (V3 m ρ) c).arrAt w cfg1.N :=
  exitW_arr m ρ 1 launch1 _ c w
theorem W6_arr (w : Fin cfg2.W) : W6 m ρ c (Proc.devRef .tc (Pipeline.arrRef spec2 w)) = (dat2 (V5 m ρ) c).arrAt w cfg2.N :=
  exitW_arr m ρ 2 launch2 _ c w
theorem W8_arr (w : Fin cfg3.W) : W8 m ρ c (Proc.devRef .tc (Pipeline.arrRef spec3 w)) = (dat3 (V7 m ρ) c).arrAt w cfg3.N :=
  exitW_arr m ρ 3 launch3 _ c w

theorem W1_keep (hb : b ∉ hostOps0_W) : W1 m ρ c (Proc.devRef .tc b) = W0 m ρ c (Proc.devRef .tc b) :=
  StableHlo.after_of_writes_sub hostOps0 _ hostOps0_writes hb
theorem W2_keep (hb : b ∉ ([main_v1] : List (Ref sig .tc))) : W2 m ρ c (Proc.devRef .tc b) = W1 m ρ c (Proc.devRef .tc b) :=
  exitW_keep m ρ 0 launch0 _ c (fun _ _ => rfl) b fun w e => by subst e; revert hb w; decide
theorem W3_keep (hb : b ∉ hostOps1_W) : W3 m ρ c (Proc.devRef .tc b) = W2 m ρ c (Proc.devRef .tc b) :=
  StableHlo.after_of_writes_sub hostOps1 _ hostOps1_writes hb
theorem W4_keep (hb : b ∉ ([main_v3] : List (Ref sig .tc))) : W4 m ρ c (Proc.devRef .tc b) = W3 m ρ c (Proc.devRef .tc b) :=
  exitW_keep m ρ 1 launch1 _ c (fun _ _ => rfl) b fun w e => by subst e; revert hb w; decide
theorem W5_keep (hb : b ∉ hostOps2_W) : W5 m ρ c (Proc.devRef .tc b) = W4 m ρ c (Proc.devRef .tc b) :=
  StableHlo.after_of_writes_sub hostOps2 _ hostOps2_writes hb
theorem W6_keep (hb : b ∉ ([main_v5_0, main_v5_1] : List (Ref sig .tc))) : W6 m ρ c (Proc.devRef .tc b) = W5 m ρ c (Proc.devRef .tc b) :=
  exitW_keep m ρ 2 launch2 _ c (fun _ _ => rfl) b fun w e => by subst e; revert hb w; decide
theorem W7_keep (hb : b ∉ hostOps3_W) : W7 m ρ c (Proc.devRef .tc b) = W6 m ρ c (Proc.devRef .tc b) :=
  StableHlo.after_of_writes_sub hostOps3 _ hostOps3_writes hb
theorem W8_keep (hb : b ∉ ([main_v7_0, main_v7_1] : List (Ref sig .tc))) : W8 m ρ c (Proc.devRef .tc b) = W7 m ρ c (Proc.devRef .tc b) :=
  exitW_keep m ρ 3 launch3 _ c (fun _ _ => rfl) b fun w e => by subst e; revert hb w; decide

-- A buffer no item writes ends at its launch contents.
theorem W8_launch
    (hb : b ∉ ([main_v0, main_v1, main_v2, main_v3, main_v4, main_v5_0, main_v5_1, main_v6, main_v7_0, main_v7_1] : List (Ref sig .tc))) :
    W8 m ρ c (Proc.devRef .tc b) = m ((c : Thread nD τ).loc b) := by
  have k : ∀ l : List (Ref sig .tc), (∀ x ∈ l, x ∈ _) → b ∉ l := fun l hl h => hb (hl b h)
  rw [W8_keep m ρ c b (k _ (by decide)), W7_keep m ρ c b (k _ (by decide)), W6_keep m ρ c b (k _ (by decide)),
    W5_keep m ρ c b (k _ (by decide)), W4_keep m ρ c b (k _ (by decide)), W3_keep m ρ c b (k _ (by decide)),
    W2_keep m ρ c b (k _ (by decide)), W1_keep m ρ c b (k _ (by decide))]

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev held (W : Dev nD → Valuation τ sig (Elt F)) (c : Dev nD) : sProp 𝕄 := iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- No item writes an argument: a memory with every unscoped buffer at the last contents holds each argument as launched.
theorem args_kept {mem : (ℓ : Loc nD τ sig) → Buf (Elt F) ℓ} (h : ∀ b ∈ Pipeline.ucRefs τ sig, mem (((c : Thread nD τ)).1, b) = W8 m ρ c b) :
    mem ((c : Thread nD τ).loc main_arg0) = m ((c : Thread nD τ).loc main_arg0)
      ∧ mem ((c : Thread nD τ).loc main_arg1) = m ((c : Thread nD τ).loc main_arg1)
      ∧ mem ((c : Thread nD τ).loc main_arg2) = m ((c : Thread nD τ).loc main_arg2)
      ∧ mem ((c : Thread nD τ).loc main_arg3) = m ((c : Thread nD τ).loc main_arg3)
      ∧ mem ((c : Thread nD τ).loc main_arg4) = m ((c : Thread nD τ).loc main_arg4)
      ∧ mem ((c : Thread nD τ).loc main_arg5) = m ((c : Thread nD τ).loc main_arg5)
      ∧ mem ((c : Thread nD τ).loc main_arg6) = m ((c : Thread nD τ).loc main_arg6)
      ∧ mem ((c : Thread nD τ).loc main_arg7) = m ((c : Thread nD τ).loc main_arg7)
      ∧ mem ((c : Thread nD τ).loc main_arg8) = m ((c : Thread nD τ).loc main_arg8)
      ∧ mem ((c : Thread nD τ).loc main_arg9) = m ((c : Thread nD τ).loc main_arg9) := by
  refine ⟨?_, ?_, ?_, ?_, ?_, ?_, ?_, ?_, ?_, ?_⟩ <;> exact (h _ (mem_uc _ (by decide))).trans (W8_launch m ρ c _ (by decide))

set_option backward.isDefEq.respectTransparency.types false in
-- A region as an item from the contents `Wi` to `exitW`: its arrays leave the unscoped buffers at entry and rejoin them at exit.
def regOf (p : Fin 4) (lf : Pipeline.LaunchFacts (nD := nD) (τ := τ) cfgs p) (Wi : Dev nD → Valuation τ sig (Elt F))
    (hb : ∀ c, Pipeline.BodyObligationLoose (pdats m ρ p c) defs₀ 𝒱₀ () Set.univ)
    (hi : ∀ c, (Pipeline.ΦA (cfgs p).spec c : sProp 𝕄) ⊢ (pdats m ρ p c).Φ 0)
    (hO : ∀ c, (pdats m ρ p c).Φ (Fin.last (cfgs p).N) ⊢ (Pipeline.ΦA (cfgs p).spec c : sProp 𝕄))
    (hA : ∀ c w, (pdats m ρ p c).A w = Wi c (Proc.devRef .tc (Pipeline.arrRef (cfgs p).spec w)) := by exact fun _ _ => rfl)
    (hq : ∀ c w, (pdats m ρ p c).q w = fullShare := by exact fun _ _ => rfl) (ho : ∀ c t, (pdats m ρ p c).owed t = 0 := by exact fun _ _ => rfl)
    (hr : ∀ c x, x ∈ (pdats m ρ p c).recorded 0 := by exact fun _ _ => trivial) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p ho
  pre := held Wi
  post := held (exitW m ρ p Wi)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (pcfgs (F := F)) adm (pdats m ρ) lf.win lf.arr_whole c
      ((pdats m ρ p c).share_full (hq c)) (fun b => Wi c b) (hA c)
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    rw [Pipeline.Dat.owesAt, ho]
    iexists W; iframe HO; ipureintro; exact fun x _ => Or.inl (hr c x)
  hin c := (show _ ⊢ (Pipeline.ΦA (cfgs p).spec c : sProp 𝕄) from by rw [Pipeline.ΦA]; iintro ⟨Hp, -, Hr⟩; iframe).trans (hi c)
  hout c := (hO c).trans (by rw [Pipeline.ΦA, Pipeline.ownSems0_none]; iintro ⟨Hr, Hp⟩; iframe; iempintro)
  hexit c := by
    have hjoin := Pipeline.unscopedBufs_of_arrays (pcfgs (F := F)) adm (Ix := Unit) (Name := ℕ) (U := UR sig nD τ) (Lvl := ℕ)
      lf.win lf.arr_whole c (pdats m ρ) ((pdats m ρ p c).share_full (hq c)) (fun b => Wi c b) (fun b => exitW m ρ p Wi c b)
      ((pdats m ρ p c).arrAt · (cfgs p).N) (fun w => (exitW_arr m ρ p lf Wi c w).symm)
      fun b hb => Pipeline.withArrays_of_ne _ c _ _ b fun w e => hb (Finset.mem_image.mpr ⟨w, Finset.mem_univ _, e⟩)
    rw [Pipeline.unscopedBufs_held] at hjoin
    rw [Pipeline.Dat.owesAt, ho]
    iintro ⟨Ha, ⟨%W, -, HO⟩, HY, Hrest⟩
    imodintro
    isplitl [Ha Hrest]
    · iapply hjoin; iframe
    isplitl [HY]; · iexact HY
    iexists W; iexact HO

set_option backward.isDefEq.respectTransparency.types false in
def reg0 := regOf m ρ 0 launch0 (W1 m ρ) (fun c => (body_obligation0 (V1 m ρ) c).loose) (hin0 _) (hout0 _)
set_option backward.isDefEq.respectTransparency.types false in
def reg1 := regOf m ρ 1 launch1 (W3 m ρ) (fun c => (body_obligation1 (V3 m ρ) c).loose) (hin1 _) (hout1 _)
set_option backward.isDefEq.respectTransparency.types false in
def reg2 := regOf m ρ 2 launch2 (W5 m ρ) (fun c => (body_obligation2 (V5 m ρ) c).loose) (hin2 _) (hout2 _)
set_option backward.isDefEq.respectTransparency.types false in
def reg3 := regOf m ρ 3 launch3 (W7 m ρ) (fun c => (body_obligation3 (V7 m ρ) c).loose) (hin3 _) (hout3 _)

-- @main's 8 items in order: a host item per stretch from the contents before it, a region per kernel call.
abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)), .region (reg3 m ρ) ]
theorem main_run (c : Dev nD) : main (F := F) c = Pipeline.Seg.run (segs m ρ) := (main_chain c).trans (by chain_rfl)

set_option backward.isDefEq.respectTransparency.types false in
-- Every weakly fair execution of @main from zero counters terminates without fault, every unscoped buffer ending at the last contents.
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact sep_emp.2.trans fupd_intro)
    (T₀ := held (W0 m ρ)) (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp] <;> iexists _ <;> iassumption)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      iframe)
    (hQ := fun s h => h)

end Cert.Kernel.Hand

end
-- ==== Proof.KI.Reg0.lean ====
import proofs.«404698_j11304353923438_3_alg».proof.Proof.Gen.KernelIdeal.Launch
import proofs.«404698_j11304353923438_3_alg».proof.Proof.Gen.KernelIdeal.Skeleton
import proofs.«404698_j11304353923438_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

-- The block of window `w`'s array at grid point `t`, read off the region's entry contents.
def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x64 := Rect.unit (s := S2048x64) ![0, 0] S2048x64.size inb_S2048x64_S2048x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

-- What the body leaves in the output buffer, as a function of the three input blocks.
def out0_3 (x0 : Vec F S2048x64 .f32) (x1 : Vec F S64x64 .f32) (x2 : Vec F S1x64 .f32) : Vec F S2048x64 .bf16 :=
  View.canon [⟨r0_0, k0_pay1 (View.ld x0 r0_0) (View.ld x1 r0_1) (View.ld x2 r0_2)⟩]

set_option maxHeartbeats 1000000 in
-- On whole buffers the body keeps the inputs and leaves `out0_3` of them in the output: its single store covers the buffer.
theorem sound_kernel0 (E : Set ℕ) (i : grid0.Coords) (arg1 : Memref sig .tc .vmem S2048x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S2048x64 .bf16) (harg4 : arg4.IsWhole)
    (x0 : Vec F S2048x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (View.cover_of_tiled _ S2048x64.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := by dsimp only [dat0]
theorem after0_3 : (dat0 V c).after 3 t = out0_3 (iblk0 V c 0 t) (iblk0 V c 1 t) (iblk0 V c 2 t) := by dsimp only [dat0]

-- Before the body runs at `t` each input buffer holds that point's block, because the body leaves every input block in place.
theorem before0_of (dat : Dat τ (Elt F) Unit ℕ (UR sig nD τ) ℕ cfg0 c) (hA : ∀ w, dat.A w = V c (Pipeline.arrRef spec0 w))
    (h0 : ∀ t, dat.after 0 t = iblk0 V c 0 t) (h1 : ∀ t, dat.after 1 t = iblk0 V c 1 t) (h2 : ∀ t, dat.after 2 t = iblk0 V c 2 t) :
    (∀ d, dat.before 0 t d = iblk0 V c 0 t) ∧ (∀ d, dat.before 1 t d = iblk0 V c 1 t) ∧ ∀ d, dat.before 2 t d = iblk0 V c 2 t := by
  refine ⟨?_, ?_, ?_⟩ <;> exact fun d =>
    (dat.before_in_eq_fetched _ rfl (fun _ => rfl) (fun _ _ _ => rfl) (fun t => by (first | rw [h0] | rw [h1] | rw [h2]); unfold Dat.blockOf iblk0; rw [hA]; try rfl) t d).trans
      (by unfold Dat.fetched Dat.blockOf iblk0; rw [hA]; try rfl)

-- At every point the body's triple applies to that point's input blocks.
theorem body_obligation0 : BodyObligation (dat0 (F := F) V c) (defs₀ (F := F)) Variants.none () Set.univ := fun t => by
  rw [bigSep_W0, bigSep_W0]
  obtain ⟨b0, b1, b2⟩ := before0_of V c t (dat0 V c) (A_eq0 V c) (fun _ => by dsimp only [dat0]) (fun _ => by dsimp only [dat0]) fun _ => by dsimp only [dat0]
  simp only [b0, b1, b2]
  dsimp only [dat0]
  show _ ⊢ wp _ _ _ (bodyAt0 t) _
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  iframe H0 H1 H2
  isplitl [H3]; · iexists _; iexact H3
  iintro ⟨H0, H1, H2, H3⟩
  iframe; iexact Ho

theorem hin0 : (Pipeline.ΦA spec0 c : sProp 𝕄) ⊢ (dat0 V c).Φ 0 := .rfl
theorem hout0 : (dat0 V c).Φ (Fin.last cfg0.N) ⊢ (Pipeline.ΦA spec0 c : sProp 𝕄) := .rfl

end Cert.KernelIdeal.Hand

end
-- ==== Proof.KI.Reg1.lean ====
import proofs.«404698_j11304353923438_3_alg».proof.Proof.Gen.KernelIdeal.Launch
import proofs.«404698_j11304353923438_3_alg».proof.Proof.Gen.KernelIdeal.Skeleton
import proofs.«404698_j11304353923438_3_alg».proof.Proof.Gen.KernelIdeal.Points
import Idealize.ShloMosaic.Lib.Pipeline.FrameBody
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem live1 : ∀ t : Fin cfg1.N, cfg1.idle 0 (grid1.coords t) = false ∧ cfg1.idle 1 (grid1.coords t) = false ∧ cfg1.idle 2 (grid1.coords t) = false ∧ cfg1.idle 3 (grid1.coords t) = false := by decide +kernel
theorem idle1 : ∀ t : Fin cfg1.N, ¬t.val % 8 = 7 → cfg1.idle 4 (grid1.coords t) = true ∧ (cfg1.win 4).flush t = false := by decide +kernel
theorem live1_C : ∀ t : Fin cfg1.N, t.val % 8 = 7 → cfg1.idle 4 (grid1.coords t) = false := by decide +kernel

abbrev ms1_0 (t : Fin cfg1.N) : Memref sig .tc .vmem S1024x2048 .f32 := win1_0.stage (cfg1.slots t 0)
abbrev ms1_1 (t : Fin cfg1.N) : Memref sig .tc .vmem S2048x64 .bf16 := win1_1.stage (cfg1.slots t 1)
abbrev ms1_2 (t : Fin cfg1.N) : Memref sig .tc .vmem S64x64 .f32 := win1_2.stage (cfg1.slots t 2)
abbrev ms1_3 (t : Fin cfg1.N) : Memref sig .tc .vmem S1x64 .f32 := win1_3.stage (cfg1.slots t 3)
abbrev ms1_4 (t : Fin cfg1.N) : Memref sig .tc .vmem S1024x64 .bf16 := win1_4.stage (cfg1.slots t 4)
abbrev scM1_0 : Memref sig .tc .vmem S1024x64 .f32 := Memref.whole cc1_scratch0

theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

theorem hz1_2 : (![0, 0] : Fin 2 → Nat) = fun _ => 0 := funext fun a => by fin_cases a <;> rfl

section Run
variable (c : Dev nD) (i : grid1.Coords) (arg2 : Memref sig .tc .vmem S1024x2048 .f32) (harg2 : arg2.IsWhole) (arg3 : Memref sig .tc .vmem S2048x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .bf16) (harg6 : arg6.IsWhole) (arg7 : Memref sig .tc .vmem S1024x64 .f32) (harg7 : arg7.IsWhole)
  (x0 : Vec F S1024x2048 .f32) (x1 : Vec F S2048x64 .bf16) (x2 : Vec F S64x64 .f32) (x3 : Vec F S1x64 .f32)

-- The body between the four input buffers at their blocks (handed back as found) and what else it is given, `P`, and leaves, `Q`.
def Run1 (P Q : sProp 𝕄) : Prop := ∀ (E : Set ℕ) (K : PUnit → sProp 𝕄),
  iprop(owns (c : Thread nD τ) arg2 fullShare x0 ∗ owns (c : Thread nD τ) arg3 fullShare x1 ∗ owns (c : Thread nD τ) arg4 fullShare x2 ∗ owns (c : Thread nD τ) arg5 fullShare x3 ∗ P
      ∗ (iprop(owns (c : Thread nD τ) arg2 fullShare x0 ∗ owns (c : Thread nD τ) arg3 fullShare x1 ∗ owns (c : Thread nD τ) arg4 fullShare x2 ∗ owns (c : Thread nD τ) arg5 fullShare x3 ∗ Q) -∗ K ⟨⟩))
    ⊢ wp frame (wpE (defs₀ (F := F)) Variants.none c none) E (cc1__gcn_kernel_l1 i arg2 harg2 arg3 harg3 arg4 harg4 arg5 harg5 arg6 harg6 arg7 harg7) K

set_option maxHeartbeats 1000000 in
-- Second coordinate 0: the accumulator is zeroed, then the block product is added.
theorem run1_A (hc0 : cond1_0 i) (hc1 : ¬cond1_1 i) :
    Run1 c i arg2 harg2 arg3 harg3 arg4 harg4 arg5 harg5 arg6 harg6 arg7 harg7 x0 x1 x2 x3 iprop(∃ d, owns (c : Thread nD τ) arg7 fullShare d) (owns (c : Thread nD τ) arg7 fullShare (k1_pay2 x0 x1 (k1_pay1 (F := F)))) := by
  intro E K
  simp only [cc1__gcn_kernel_l1_eq_skeleton, owns_eq_rep]; unfold cc1__gcn_kernel_l1_skel
  iintro ⟨H0, H1, H2, H3, ⟨%d, HS0⟩, Hk⟩
  sl_exec (disch := first | exact hc0 | exact hc1)
  sl_step
  iapply Hk
  iframe
  iapply (rep_of_owns (c : Thread nD τ) arg7 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_cons_unit_zero (S := S1024x64) hz1_2, View.readCov_unit_zero (S := S1024x64) _ hz1_2]
  simp only [View.readAt_eq_ld, View.read_rep, View.ld_unit_zero (S := S1024x2048) hz1_2, View.ld_unit_zero (S := S2048x64) hz1_2, View.ld_unit_zero (S := S1024x64) hz1_2, View.ld_unit_zero (S := S64x64) hz1_2, View.ld_unit_zero (S := S1x64) hz1_2]

set_option maxHeartbeats 1000000 in
-- Second coordinate strictly between 0 and 7: the block product is added to what the accumulator held.
theorem run1_B (hc0 : ¬cond1_0 i) (hc1 : ¬cond1_1 i) (xs0 : Vec F S1024x64 .f32) :
    Run1 c i arg2 harg2 arg3 harg3 arg4 harg4 arg5 harg5 arg6 harg6 arg7 harg7 x0 x1 x2 x3 (owns (c : Thread nD τ) arg7 fullShare xs0) (owns (c : Thread nD τ) arg7 fullShare (k1_pay2 x0 x1 xs0)) := by
  intro E K
  simp only [cc1__gcn_kernel_l1_eq_skeleton, owns_eq_rep]; unfold cc1__gcn_kernel_l1_skel
  iintro ⟨H0, H1, H2, H3, HS0, Hk⟩
  sl_exec (disch := first | exact hc0 | exact hc1)
  sl_step
  iapply Hk
  iframe
  iapply (rep_of_owns (c : Thread nD τ) arg7 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_unit_zero hz1_2]
  simp only [View.readAt_eq_ld, View.read_rep, View.ld_unit_zero (S := S1024x2048) hz1_2, View.ld_unit_zero (S := S2048x64) hz1_2, View.ld_unit_zero (S := S1024x64) hz1_2, View.ld_unit_zero (S := S64x64) hz1_2, View.ld_unit_zero (S := S1x64) hz1_2]

set_option maxHeartbeats 1000000 in
-- Second coordinate 7: after the last block product the output is stored from the accumulator.
theorem run1_C (hc0 : ¬cond1_0 i) (hc1 : cond1_1 i) (xs0 : Vec F S1024x64 .f32) :
    Run1 c i arg2 harg2 arg3 harg3 arg4 harg4 arg5 harg5 arg6 harg6 arg7 harg7 x0 x1 x2 x3 iprop((∃ d, owns (c : Thread nD τ) arg6 fullShare d) ∗ owns (c : Thread nD τ) arg7 fullShare xs0)
      iprop(owns (c : Thread nD τ) arg6 fullShare (k1_pay3 (k1_pay2 x0 x1 xs0) x2 x3) ∗ owns (c : Thread nD τ) arg7 fullShare (k1_pay2 x0 x1 xs0)) := by
  intro E K
  simp only [cc1__gcn_kernel_l1_eq_skeleton, owns_eq_rep]; unfold cc1__gcn_kernel_l1_skel
  iintro ⟨H0, H1, H2, H3, ⟨⟨%d4, H4⟩, HS0⟩, Hk⟩
  sl_exec (disch := first | exact hc0 | exact hc1)
  sl_step
  iapply Hk
  iframe
  isplitl [H4]
  · iapply (rep_of_owns (c : Thread nD τ) arg6 fullShare _)
    unfold owns; iexists _; isplitr
    swap; · iexact H4
    ipureintro
    refine (View.read_writes_eq_canon _ _ _ ?cov).trans ?_
    case cov => exact View.cover_of_tiledL _ S1024x64.size (by sl_kernel_rfl)
    sl_unfold_words
    rw [View.canon_unit_zero hz1_2]
    simp only [View.readCov_unit_zero (S := S1024x64) _ hz1_2, View.readAt_eq_ld, View.read_rep, View.ld_unit_zero (S := S1024x2048) hz1_2, View.ld_unit_zero (S := S2048x64) hz1_2, View.ld_unit_zero (S := S1024x64) hz1_2, View.ld_unit_zero (S := S64x64) hz1_2, View.ld_unit_zero (S := S1x64) hz1_2]
  iapply (rep_of_owns (c : Thread nD τ) arg7 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_unit_zero hz1_2]
  simp only [View.readAt_eq_ld, View.read_rep, View.ld_unit_zero (S := S1024x2048) hz1_2, View.ld_unit_zero (S := S2048x64) hz1_2, View.ld_unit_zero (S := S1024x64) hz1_2, View.ld_unit_zero (S := S64x64) hz1_2, View.ld_unit_zero (S := S1x64) hz1_2]

end Run

-- The accumulator after point n: the block product added to zeros where n ≡ 0 (mod 8), else to what point n - 1 left.
def acc1 (c : Dev nD) : (n : ℕ) → n < cfg1.N → Vec F S1024x64 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩) (if (n + 1) % 8 = 0 then k1_pay1 else acc1 c n (Nat.lt_of_succ_lt hn))

theorem acc1_eq (c : Dev nD) (t : Fin cfg1.N) :
    acc1 V c t.val t.isLt = k1_pay2 (iblk1 V c 0 t) (iblk1 V c 1 t) (if t.val % 8 = 0 then k1_pay1 else acc1 V c (t.val - 1) (Nat.lt_of_le_of_lt (Nat.sub_le _ _) t.isLt)) := by
  obtain ⟨_ | n, hn⟩ := t <;> rfl

-- The region's invariant with the accumulator held as `P`.
def PhiP1 (c : Dev nD) (P : sProp 𝕄) : sProp 𝕄 := iprop(iprop(P ∗ Pipeline.scopedRestBut spec1 c [cc1_scratch0]) ∗ (∃ r, prngReg c r))

def PhiS1 (c : Dev nD) : (n : ℕ) → n ≤ cfg1.N → sProp 𝕄
  | 0, _ => Pipeline.ΦA spec1 c
  | n + 1, hn => PhiP1 c (owns (c : Thread nD τ) scM1_0 fullShare (acc1 V c n hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 2 t) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem Phi_pos1 (c : Dev nD) (t : Fin cfg1.N) (hz : t.val ≠ 0) :
    (dat1 V c).Φ t.castSucc = PhiP1 c (owns (c : Thread nD τ) scM1_0 fullShare (acc1 V c (t.val - 1) (Nat.lt_of_le_of_lt (Nat.sub_le _ _) t.isLt))) := by
  obtain ⟨_ | n, hn⟩ := t
  · exact absurd rfl hz
  · rfl

-- After any point the accumulator's contents can be forgotten.
theorem Phi_out1 (c : Dev nD) (t : Fin (cfg1.N + 1)) : (dat1 V c).Φ t ⊢ (Pipeline.ΦA spec1 c : sProp 𝕄) := by
  obtain ⟨_ | n, hn⟩ := t
  · exact .rfl
  · rw [PhiA1_eq]; show PhiP1 c _ ⊢ _; unfold PhiP1
    iintro ⟨⟨HS0, Hr⟩, Hg⟩; iframe; iexists _; iexact HS0

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := Phi_out1 V c _

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
-- At every point the body returns the inputs, and the output where it does not store into it, unchanged, and takes the accumulator from what the point before left to `acc1`.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨l0, l1, l2, l3⟩ := live1 t
  have hN : t.val < 128 := lt_of_lt_of_eq t.isLt N_1
  simp only [before1_0, before1_1, before1_2, before1_3]
  rw [show (dat1 V c).owesAt () t.succ = (dat1 V c).owesAt () t.castSucc from rfl,
    show (dat1 V c).Φ t.succ = PhiP1 c (owns (c : Thread nD τ) scM1_0 fullShare (acc1 V c t.val t.isLt)) from rfl,
    show (dat1 V c).leavesExact 0 t = owns (c : Thread nD τ) (ms1_0 t) fullShare (iblk1 V c 0 t) from by unfold Dat.leavesExact; rw [l0]; try rfl,
    show (dat1 V c).leavesExact 1 t = owns (c : Thread nD τ) (ms1_1 t) fullShare (iblk1 V c 1 t) from by unfold Dat.leavesExact; rw [l1]; try rfl,
    show (dat1 V c).leavesExact 2 t = owns (c : Thread nD τ) (ms1_2 t) fullShare (iblk1 V c 2 t) from by unfold Dat.leavesExact; rw [l2]; try rfl,
    show (dat1 V c).leavesExact 3 t = owns (c : Thread nD τ) (ms1_3 t) fullShare (iblk1 V c 3 t) from by unfold Dat.leavesExact; rw [l3]; try rfl]
  by_cases h7 : t.val % 8 = 7
  · have l4 := live1_C t h7
    have h0 : ¬t.val % 8 = 0 := by omega
    rw [show (dat1 V c).leavesExact 4 t = owns (c : Thread nD τ) (ms1_4 t) fullShare (k1_pay3 (acc1 V c t.val t.isLt) (iblk1 V c 2 t) (iblk1 V c 3 t)) from by unfold Dat.leavesExact; rw [l4]; try rfl,
      acc1_eq, if_neg h0, Phi_pos1 V c t (by omega)]
    generalize acc1 V c (t.val - 1) _ = a
    unfold PhiP1
    iintro ⟨⟨⟨HS0, Hr⟩, Hg⟩, Ho, ⟨%d0, H0⟩, ⟨%d1, H1⟩, ⟨%d2, H2⟩, ⟨%d3, H3⟩, ⟨%d4, H4⟩⟩
    iapply (run1_C c (grid1.coords t) _ _ _ _ _ _ _ _ _ _ _ _ (iblk1 V c 0 t) (iblk1 V c 1 t) (iblk1 V c 2 t) (iblk1 V c 3 t) (fun h => h0 ((hcond1_0 t).mp h)) ((hcond1_1 t).mpr h7) a Set.univ _)
    iframe H0 H1 H2 H3 HS0
    isplitl [H4]; · iexists _; iexact H4
    iintro ⟨H0, H1, H2, H3, H4, HS0⟩
    iframe
  · obtain ⟨i4, f4⟩ := idle1 t h7
    rw [Dat.leavesExact_idle (dat1 V c) 4 t i4 f4, acc1_eq]
    by_cases h0 : t.val % 8 = 0
    · rw [if_pos h0]
      refine (sep_mono_left (Phi_out1 V c t.castSucc)).trans ?_
      rw [PhiA1_eq]; unfold PhiP1
      iintro ⟨⟨⟨HS0, Hr⟩, Hg⟩, Ho, ⟨%d0, H0⟩, ⟨%d1, H1⟩, ⟨%d2, H2⟩, ⟨%d3, H3⟩, H4⟩
      iapply (run1_A c (grid1.coords t) _ _ _ _ _ _ _ _ _ _ _ _ (iblk1 V c 0 t) (iblk1 V c 1 t) (iblk1 V c 2 t) (iblk1 V c 3 t) ((hcond1_0 t).mpr h0) (fun h => h7 ((hcond1_1 t).mp h)) Set.univ _)
      iframe H0 H1 H2 H3 HS0
      iintro ⟨H0, H1, H2, H3, HS0⟩
      iframe
    · rw [if_neg h0, Phi_pos1 V c t (by omega)]
      generalize acc1 V c (t.val - 1) _ = a
      unfold PhiP1
      iintro ⟨⟨⟨HS0, Hr⟩, Hg⟩, Ho, ⟨%d0, H0⟩, ⟨%d1, H1⟩, ⟨%d2, H2⟩, ⟨%d3, H3⟩, H4⟩
      iapply (run1_B c (grid1.coords t) _ _ _ _ _ _ _ _ _ _ _ _ (iblk1 V c 0 t) (iblk1 V c 1 t) (iblk1 V c 2 t) (iblk1 V c 3 t) (fun h => h0 ((hcond1_0 t).mp h)) (fun h => h7 ((hcond1_1 t).mp h)) a Set.univ _)
      iframe H0 H1 H2 H3 HS0
      iintro ⟨H0, H1, H2, H3, HS0⟩
      iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«404698_j11304353923438_3_alg».proof.Proof.Gen.KernelIdeal.Launch
import proofs.«404698_j11304353923438_3_alg».proof.Proof.Gen.KernelIdeal.Skeleton
import proofs.«404698_j11304353923438_3_alg».proof.Proof.Gen.KernelIdeal.Points
import Idealize.ShloMosaic.Lib.Pipeline.FrameBody
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem live2 : ∀ t : Fin cfg2.N, cfg2.idle 0 (grid2.coords t) = false ∧ cfg2.idle 1 (grid2.coords t) = false ∧ cfg2.idle 2 (grid2.coords t) = false ∧ cfg2.idle 3 (grid2.coords t) = false := by decide +kernel
theorem idle2 : ∀ t : Fin cfg2.N, ¬t.val % 8 = 7 → (cfg2.idle 4 (grid2.coords t) = true ∧ (cfg2.win 4).flush t = false) ∧ cfg2.idle 5 (grid2.coords t) = true ∧ (cfg2.win 5).flush t = false := by decide +kernel
theorem live2_C : ∀ t : Fin cfg2.N, t.val % 8 = 7 → cfg2.idle 4 (grid2.coords t) = false ∧ cfg2.idle 5 (grid2.coords t) = false := by decide +kernel

abbrev ms2_0 (t : Fin cfg2.N) : Memref sig .tc .vmem S1024x2048 .f32 := win2_0.stage (cfg2.slots t 0)
abbrev ms2_1 (t : Fin cfg2.N) : Memref sig .tc .vmem S2048x64 .bf16 := win2_1.stage (cfg2.slots t 1)
abbrev ms2_2 (t : Fin cfg2.N) : Memref sig .tc .vmem S1x64 .f32 := win2_2.stage (cfg2.slots t 2)
abbrev ms2_3 (t : Fin cfg2.N) : Memref sig .tc .vmem S1x1 .f32 := win2_3.stage (cfg2.slots t 3)
abbrev ms2_4 (t : Fin cfg2.N) : Memref sig .tc .vmem S1024x64 .bf16 := win2_4.stage (cfg2.slots t 4)
abbrev ms2_5 (t : Fin cfg2.N) : Memref sig .tc .vmem S1024 .f32 := win2_5.stage (cfg2.slots t 5)
abbrev scM2_0 : Memref sig .tc .vmem S1024x64 .f32 := Memref.whole cc2_scratch0

theorem PhiA2_eq (c : Dev nD) :
    (Pipeline.ΦA spec2 c : sProp 𝕄)
      = iprop(iprop(iprop((∃ d, owns (c : Thread nD τ) scM2_0 fullShare d)) ∗ Pipeline.scopedRestBut spec2 c [cc2_scratch0]) ∗ (∃ r, prngReg c r)) := by
  unfold Pipeline.ΦA; rw [scopedRest2_split]; simp only [scM2_0, owns_whole]; try rfl

theorem hz2_2 : (![0, 0] : Fin 2 → Nat) = fun _ => 0 := funext fun a => by fin_cases a <;> rfl
theorem hz2_1 : (![0] : Fin 1 → Nat) = fun _ => 0 := funext fun a => by fin_cases a <;> rfl

section Run
variable (c : Dev nD) (i : grid2.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1x1 .f32) (harg5 : arg5.IsWhole) (arg6 : Memref sig .tc .vmem S1024x64 .bf16) (harg6 : arg6.IsWhole) (arg7 : Memref sig .tc .vmem S1024 .f32) (harg7 : arg7.IsWhole) (arg8 : Memref sig .tc .vmem S1024x64 .f32) (harg8 : arg8.IsWhole)
  (x0 : Vec F S1024x2048 .f32) (x1 : Vec F S2048x64 .bf16) (x2 : Vec F S1x64 .f32) (x3 : Vec F S1x1 .f32)

-- The body between the four input buffers at their blocks (handed back as found) and what else it is given, `P`, and leaves, `Q`.
def Run2 (P Q : sProp 𝕄) : Prop := ∀ (E : Set ℕ) (K : PUnit → sProp 𝕄),
  iprop(owns (c : Thread nD τ) arg2 fullShare x0 ∗ owns (c : Thread nD τ) arg3 fullShare x1 ∗ owns (c : Thread nD τ) arg4 fullShare x2 ∗ owns (c : Thread nD τ) arg5 fullShare x3 ∗ P
      ∗ (iprop(owns (c : Thread nD τ) arg2 fullShare x0 ∗ owns (c : Thread nD τ) arg3 fullShare x1 ∗ owns (c : Thread nD τ) arg4 fullShare x2 ∗ owns (c : Thread nD τ) arg5 fullShare x3 ∗ Q) -∗ K ⟨⟩))
    ⊢ wp frame (wpE (defs₀ (F := F)) Variants.none c none) E (cc2__gcn_kernel_l2 i arg2 harg2 arg3 harg3 arg4 harg4 arg5 harg5 arg6 harg6 arg7 harg7 arg8 harg8) K

set_option maxHeartbeats 1000000 in
-- Second coordinate 0: the accumulator is zeroed, then the block product is added.
theorem run2_A (hc0 : cond2_0 i) (hc1 : ¬cond2_1 i) :
    Run2 c i arg2 harg2 arg3 harg3 arg4 harg4 arg5 harg5 arg6 harg6 arg7 harg7 arg8 harg8 x0 x1 x2 x3 iprop(∃ d, owns (c : Thread nD τ) arg8 fullShare d) (owns (c : Thread nD τ) arg8 fullShare (k2_pay2 x0 x1 (k2_pay1 (F := F)))) := by
  intro E K
  simp only [cc2__gcn_kernel_l2_eq_skeleton, owns_eq_rep]; unfold cc2__gcn_kernel_l2_skel
  iintro ⟨H0, H1, H2, H3, ⟨%d, HS0⟩, Hk⟩
  sl_exec (disch := first | exact hc0 | exact hc1)
  sl_step
  iapply Hk
  iframe
  iapply (rep_of_owns (c : Thread nD τ) arg8 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_cons_unit_zero (S := S1024x64) hz2_2, View.readCov_unit_zero (S := S1024x64) _ hz2_2]
  simp only [View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]

set_option maxHeartbeats 1000000 in
-- Second coordinate strictly between 0 and 7: the block product is added to what the accumulator held.
theorem run2_B (hc0 : ¬cond2_0 i) (hc1 : ¬cond2_1 i) (xs0 : Vec F S1024x64 .f32) :
    Run2 c i arg2 harg2 arg3 harg3 arg4 harg4 arg5 harg5 arg6 harg6 arg7 harg7 arg8 harg8 x0 x1 x2 x3 (owns (c : Thread nD τ) arg8 fullShare xs0) (owns (c : Thread nD τ) arg8 fullShare (k2_pay2 x0 x1 xs0)) := by
  intro E K
  simp only [cc2__gcn_kernel_l2_eq_skeleton, owns_eq_rep]; unfold cc2__gcn_kernel_l2_skel
  iintro ⟨H0, H1, H2, H3, HS0, Hk⟩
  sl_exec (disch := first | exact hc0 | exact hc1)
  sl_step
  iapply Hk
  iframe
  iapply (rep_of_owns (c : Thread nD τ) arg8 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_unit_zero hz2_2]
  simp only [View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]

set_option maxHeartbeats 1000000 in
-- Second coordinate 7: after the last block product the two outputs are stored from the accumulator.
theorem run2_C (hc0 : ¬cond2_0 i) (hc1 : cond2_1 i) (xs0 : Vec F S1024x64 .f32) :
    Run2 c i arg2 harg2 arg3 harg3 arg4 harg4 arg5 harg5 arg6 harg6 arg7 harg7 arg8 harg8 x0 x1 x2 x3 iprop((∃ d, owns (c : Thread nD τ) arg6 fullShare d) ∗ (∃ d, owns (c : Thread nD τ) arg7 fullShare d) ∗ owns (c : Thread nD τ) arg8 fullShare xs0)
      iprop(owns (c : Thread nD τ) arg6 fullShare (k2_pay4 (k2_pay2 x0 x1 xs0)) ∗ owns (c : Thread nD τ) arg7 fullShare (k2_pay5 (k2_pay2 x0 x1 xs0) x2 x3) ∗ owns (c : Thread nD τ) arg8 fullShare (k2_pay2 x0 x1 xs0)) := by
  intro E K
  simp only [cc2__gcn_kernel_l2_eq_skeleton, owns_eq_rep]; unfold cc2__gcn_kernel_l2_skel
  iintro ⟨H0, H1, H2, H3, ⟨⟨%d4, H4⟩, ⟨%d5, H5⟩, HS0⟩, Hk⟩
  sl_exec (disch := first | exact hc0 | exact hc1)
  sl_step
  iapply Hk
  iframe
  isplitl [H4]
  · iapply (rep_of_owns (c : Thread nD τ) arg6 fullShare _)
    unfold owns; iexists _; isplitr
    swap; · iexact H4
    ipureintro
    refine (View.read_writes_eq_canon _ _ _ ?cov).trans ?_
    case cov => exact View.cover_of_tiledL _ S1024x64.size (by sl_kernel_rfl)
    sl_unfold_words
    rw [View.canon_unit_zero hz2_2]
    simp only [View.readCov_unit_zero (S := S1024x64) _ hz2_2, View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]
  isplitl [H5]
  · iapply (rep_of_owns (c : Thread nD τ) arg7 fullShare _)
    unfold owns; iexists _; isplitr
    swap; · iexact H5
    ipureintro
    refine (View.read_writes_eq_canon _ _ _ ?cov).trans ?_
    case cov => exact View.cover_of_tiledL _ S1024.size (by sl_kernel_rfl)
    sl_unfold_words
    rw [View.canon_unit_zero hz2_1]
    simp only [View.readCov_unit_zero (S := S1024x64) _ hz2_2, View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]
  iapply (rep_of_owns (c : Thread nD τ) arg8 fullShare _)
  unfold owns; iexists _; isplitr
  swap; · iexact HS0
  ipureintro
  refine (View.read_writes_eq_canon _ _ _ ?cov).trans ?_
  case cov => exact View.cover_of_tiledL _ S1024x64.size (by sl_kernel_rfl)
  sl_unfold_words
  rw [View.canon_unit_zero hz2_2]
  simp only [View.readAt_eq_ld, View.read_rep, View.ld_unit_zero (S := S1024x2048) hz2_2, View.ld_unit_zero (S := S2048x64) hz2_2, View.ld_unit_zero (S := S1024x64) hz2_2, View.ld_unit_zero (S := S1x64) hz2_2, View.ld_unit_zero (S := S1x1) hz2_2]

end Run

-- The accumulator after point n: the block product added to zeros where n ≡ 0 (mod 8), else to what point n - 1 left.
def acc2 (c : Dev nD) : (n : ℕ) → n < cfg2.N → Vec F S1024x64 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩) (if (n + 1) % 8 = 0 then k2_pay1 else acc2 c n (Nat.lt_of_succ_lt hn))

theorem acc2_eq (c : Dev nD) (t : Fin cfg2.N) :
    acc2 V c t.val t.isLt = k2_pay2 (iblk2 V c 0 t) (iblk2 V c 1 t) (if t.val % 8 = 0 then k2_pay1 else acc2 V c (t.val - 1) (Nat.lt_of_le_of_lt (Nat.sub_le _ _) t.isLt)) := by
  obtain ⟨_ | n, hn⟩ := t <;> rfl

-- The region's invariant with the accumulator held as `P`.
def PhiP2 (c : Dev nD) (P : sProp 𝕄) : sProp 𝕄 := iprop(iprop(P ∗ Pipeline.scopedRestBut spec2 c [cc2_scratch0]) ∗ (∃ r, prngReg c r))

def PhiS2 (c : Dev nD) : (n : ℕ) → n ≤ cfg2.N → sProp 𝕄
  | 0, _ => Pipeline.ΦA spec2 c
  | n + 1, hn => PhiP2 c (owns (c : Thread nD τ) scM2_0 fullShare (acc2 V c n hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay4 (acc2 V c t.val t.isLt)
    | ⟨5, _⟩ => k2_pay5 (acc2 V c t.val t.isLt) (iblk2 V c 2 t) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem Phi_pos2 (c : Dev nD) (t : Fin cfg2.N) (hz : t.val ≠ 0) :
    (dat2 V c).Φ t.castSucc = PhiP2 c (owns (c : Thread nD τ) scM2_0 fullShare (acc2 V c (t.val - 1) (Nat.lt_of_le_of_lt (Nat.sub_le _ _) t.isLt))) := by
  obtain ⟨_ | n, hn⟩ := t
  · exact absurd rfl hz
  · rfl

-- After any point the accumulator's contents can be forgotten.
theorem Phi_out2 (c : Dev nD) (t : Fin (cfg2.N + 1)) : (dat2 V c).Φ t ⊢ (Pipeline.ΦA spec2 c : sProp 𝕄) := by
  obtain ⟨_ | n, hn⟩ := t
  · exact .rfl
  · rw [PhiA2_eq]; show PhiP2 c _ ⊢ _; unfold PhiP2
    iintro ⟨⟨HS0, Hr⟩, Hg⟩; iframe; iexists _; iexact HS0

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := Phi_out2 V c _

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
-- At every point the body returns the inputs, and an output it does not store into, unchanged, and takes the accumulator from what the point before left to `acc2`.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨l0, l1, l2, l3⟩ := live2 t
  have hN : t.val < 128 := lt_of_lt_of_eq t.isLt N_2
  simp only [before2_0, before2_1, before2_2, before2_3]
  rw [show (dat2 V c).owesAt () t.succ = (dat2 V c).owesAt () t.castSucc from rfl,
    show (dat2 V c).Φ t.succ = PhiP2 c (owns (c : Thread nD τ) scM2_0 fullShare (acc2 V c t.val t.isLt)) from rfl,
    show (dat2 V c).leavesExact 0 t = owns (c : Thread nD τ) (ms2_0 t) fullShare (iblk2 V c 0 t) from by unfold Dat.leavesExact; rw [l0]; try rfl,
    show (dat2 V c).leavesExact 1 t = owns (c : Thread nD τ) (ms2_1 t) fullShare (iblk2 V c 1 t) from by unfold Dat.leavesExact; rw [l1]; try rfl,
    show (dat2 V c).leavesExact 2 t = owns (c : Thread nD τ) (ms2_2 t) fullShare (iblk2 V c 2 t) from by unfold Dat.leavesExact; rw [l2]; try rfl,
    show (dat2 V c).leavesExact 3 t = owns (c : Thread nD τ) (ms2_3 t) fullShare (iblk2 V c 3 t) from by unfold Dat.leavesExact; rw [l3]; try rfl]
  by_cases h7 : t.val % 8 = 7
  · obtain ⟨l4, l5⟩ := live2_C t h7
    have h0 : ¬t.val % 8 = 0 := by omega
    rw [show (dat2 V c).leavesExact 4 t = owns (c : Thread nD τ) (ms2_4 t) fullShare (k2_pay4 (acc2 V c t.val t.isLt)) from by unfold Dat.leavesExact; rw [l4]; try rfl,
      show (dat2 V c).leavesExact 5 t = owns (c : Thread nD τ) (ms2_5 t) fullShare (k2_pay5 (acc2 V c t.val t.isLt) (iblk2 V c 2 t) (iblk2 V c 3 t)) from by unfold Dat.leavesExact; rw [l5]; try rfl,
      acc2_eq, if_neg h0, Phi_pos2 V c t (by omega)]
    generalize acc2 V c (t.val - 1) _ = a
    unfold PhiP2
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply (run2_C c (grid2.coords t) _ _ _ _ _ _ _ _ _ _ _ _ _ _ (iblk2 V c 0 t) (iblk2 V c 1 t) (iblk2 V c 2 t) (iblk2 V c 3 t) (fun h => h0 ((hcond2_0 t).mp h)) ((hcond2_1 t).mpr h7) a Set.univ _)
    iframe H0 H1 H2 H3 HS0
    isplitl [H4 H5]
    · isplitl [H4]; · iexists _; iexact H4
      iexists _; iexact H5
    iintro ⟨H0, H1, H2, H3, H4, H5, HS0⟩
    iframe
  · obtain ⟨⟨i4, f4⟩, i5, f5⟩ := idle2 t h7
    rw [Dat.leavesExact_idle (dat2 V c) 4 t i4 f4, Dat.leavesExact_idle (dat2 V c) 5 t i5 f5, acc2_eq]
    by_cases h0 : t.val % 8 = 0
    · rw [if_pos h0]
      refine (sep_mono_left (Phi_out2 V c t.castSucc)).trans ?_
      rw [PhiA2_eq]; unfold PhiP2
      iintro ⟨⟨⟨HS0, Hr⟩, Hg⟩, Ho, ⟨%d0, H0⟩, ⟨%d1, H1⟩, ⟨%d2, H2⟩, ⟨%d3, H3⟩, H4, H5⟩
      iapply (run2_A c (grid2.coords t) _ _ _ _ _ _ _ _ _ _ _ _ _ _ (iblk2 V c 0 t) (iblk2 V c 1 t) (iblk2 V c 2 t) (iblk2 V c 3 t) ((hcond2_0 t).mpr h0) (fun h => h7 ((hcond2_1 t).mp h)) Set.univ _)
      iframe H0 H1 H2 H3 HS0
      iintro ⟨H0, H1, H2, H3, HS0⟩
      iframe
    · rw [if_neg h0, Phi_pos2 V c t (by omega)]
      generalize acc2 V c (t.val - 1) _ = a
      unfold PhiP2
      iintro ⟨⟨⟨HS0, Hr⟩, Hg⟩, Ho, ⟨%d0, H0⟩, ⟨%d1, H1⟩, ⟨%d2, H2⟩, ⟨%d3, H3⟩, H4, H5⟩
      iapply (run2_B c (grid2.coords t) _ _ _ _ _ _ _ _ _ _ _ _ _ _ (iblk2 V c 0 t) (iblk2 V c 1 t) (iblk2 V c 2 t) (iblk2 V c 3 t) (fun h => h0 ((hcond2_0 t).mp h)) (fun h => h7 ((hcond2_1 t).mp h)) a Set.univ _)
      iframe H0 H1 H2 H3 HS0
      iintro ⟨H0, H1, H2, H3, HS0⟩
      iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«404698_j11304353923438_3_alg».proof.Proof.Gen.KernelIdeal.Launch
import proofs.«404698_j11304353923438_3_alg».proof.Proof.Gen.KernelIdeal.Skeleton
import proofs.«404698_j11304353923438_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg3.N)

-- The block of window `w`'s array at grid point `t`, read off the region's entry contents.
def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S32x16384 := Rect.unit (s := S32x16384) ![0, 0] S32x16384.size inb_S32x16384_S32x16384_0_0
abbrev r3_1 : Rect S1x16384 := Rect.unit (s := S1x16384) ![0, 0] S1x16384.size inb_S1x16384_S1x16384_0_0
abbrev r3_2 : Rect S16384x64 := Rect.unit (s := S16384x64) ![0, 0] S16384x64.size inb_S16384x64_S16384x64_0_0
abbrev r3_3 : Rect S32x64 := Rect.unit (s := S32x64) ![0, 0] S32x64.size inb_S32x64_S32x64_0_0

-- What the body leaves in the weight buffer: the row-wise softmax of the block's scores.
def out3_4 (x0 x1 : Vec F S32x16384 .f32) (x2 : Vec F S1x16384 .f32) : Vec F S32x16384 .f32 :=
  View.canon [⟨r3_0, k3_pay1 (View.ld x0 r3_0) (View.ld x1 r3_0) (View.ld x2 r3_1)⟩]

-- What the body leaves in the pooled buffer: those weights times the node features.
def out3_5 (x0 x1 : Vec F S32x16384 .f32) (x2 : Vec F S1x16384 .f32) (x3 : Vec F S16384x64 .bf16) : Vec F S32x64 .f32 :=
  View.canon [⟨r3_3, k3_pay2 (View.ld x0 r3_0) (View.ld x1 r3_0) (View.ld x2 r3_1) (View.ld x3 r3_2)⟩]

set_option maxHeartbeats 1000000 in
-- On whole buffers the body keeps the inputs and leaves `out3_4`, `out3_5` of them in the outputs: each single store covers its buffer.
theorem sound_kernel3 (E : Set ℕ) (i : grid3.Coords)
    (arg1 : Memref sig .tc .vmem S32x16384 .f32) (harg1 : arg1.IsWhole) (arg2 : Memref sig .tc .vmem S32x16384 .f32) (harg2 : arg2.IsWhole)
    (arg3 : Memref sig .tc .vmem S1x16384 .f32) (harg3 : arg3.IsWhole) (arg4 : Memref sig .tc .vmem S16384x64 .bf16) (harg4 : arg4.IsWhole)
    (arg5 : Memref sig .tc .vmem S32x16384 .f32) (harg5 : arg5.IsWhole) (arg6 : Memref sig .tc .vmem S32x64 .f32) (harg6 : arg6.IsWhole)
    (x0 x1 : Vec F S32x16384 .f32) (x2 : Vec F S1x16384 .f32) (x3 : Vec F S16384x64 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2) ∗ owns (c : Thread nD τ) arg6 fullShare (out3_5 x0 x1 x2 x3)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]
  · iexists _; iframe H4; ipureintro
    exact View.read_writes_eq_canon _ _ _ (View.cover_of_tiled _ S32x16384.size (by rfl))
  iexists _; iframe H5; ipureintro
  exact View.read_writes_eq_canon _ _ _ (View.cover_of_tiled _ S32x64.size (by rfl))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (w : Fin cfg3.W) : (dat3 V c).A w = V c (Pipeline.arrRef spec3 w) := by dsimp only [dat3]
theorem after3_4 : (dat3 V c).after 4 t = out3_4 (iblk3 V c 0 t) (iblk3 V c 1 t) (iblk3 V c 2 t) := by dsimp only [dat3]
theorem after3_5 : (dat3 V c).after 5 t = out3_5 (iblk3 V c 0 t) (iblk3 V c 1 t) (iblk3 V c 2 t) (iblk3 V c 3 t) := by dsimp only [dat3]

-- Before the body runs at `t` each input buffer holds that point's block, because the body leaves every input block in place.
theorem before3_of (dat : Dat τ (Elt F) Unit ℕ (UR sig nD τ) ℕ cfg3 c) (hA : ∀ w, dat.A w = V c (Pipeline.arrRef spec3 w))
    (h0 : ∀ t, dat.after 0 t = iblk3 V c 0 t) (h1 : ∀ t, dat.after 1 t = iblk3 V c 1 t) (h2 : ∀ t, dat.after 2 t = iblk3 V c 2 t)
    (h3 : ∀ t, dat.after 3 t = iblk3 V c 3 t) :
    (∀ d, dat.before 0 t d = iblk3 V c 0 t) ∧ (∀ d, dat.before 1 t d = iblk3 V c 1 t) ∧ (∀ d, dat.before 2 t d = iblk3 V c 2 t)
      ∧ ∀ d, dat.before 3 t d = iblk3 V c 3 t := by
  refine ⟨?_, ?_, ?_, ?_⟩ <;> exact fun d =>
    (dat.before_in_eq_fetched _ rfl (fun _ => rfl) (fun _ _ _ => rfl) (fun t => by (first | rw [h0] | rw [h1] | rw [h2] | rw [h3]); unfold Dat.blockOf iblk3; rw [hA]; try rfl) t d).trans
      (by unfold Dat.fetched Dat.blockOf iblk3; rw [hA]; try rfl)

-- At every point the body's triple applies to that point's input blocks.
theorem body_obligation3 : BodyObligation (dat3 (F := F) V c) (defs₀ (F := F)) Variants.none () Set.univ := fun t => by
  rw [bigSep_W3, bigSep_W3]
  obtain ⟨b0, b1, b2, b3⟩ := before3_of V c t (dat3 V c) (A_eq3 V c) (fun _ => by dsimp only [dat3]) (fun _ => by dsimp only [dat3])
    (fun _ => by dsimp only [dat3]) fun _ => by dsimp only [dat3]
  simp only [b0, b1, b2, b3]
  dsimp only [dat3]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  iframe H0 H1 H2 H3
  isplitl [H4]; · iexists _; iexact H4
  isplitl [H5]; · iexists _; iexact H5
  iintro ⟨H0, H1, H2, H3, H4, H5⟩
  iframe; iexact Ho

theorem hin3 : (Pipeline.ΦA spec3 c : sProp 𝕄) ⊢ (dat3 V c).Φ 0 := .rfl
theorem hout3 : (dat3 V c).Φ (Fin.last cfg3.N) ⊢ (Pipeline.ΦA spec3 c : sProp 𝕄) := .rfl

end Cert.KernelIdeal.Hand

end
-- ==== Proof.KI.Run.lean ====
import proofs.«404698_j11304353923438_3_alg».proof.Proof.KI.Reg0
import proofs.«404698_j11304353923438_3_alg».proof.Proof.KI.Reg1
import proofs.«404698_j11304353923438_3_alg».proof.Proof.KI.Reg2
import proofs.«404698_j11304353923438_3_alg».proof.Proof.KI.Reg3
import proofs.«404698_j11304353923438_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
abbrev V8 : (c : Dev nD) → (b : Ref sig .tc) → Buf (Elt F) ((c : Thread nD τ).loc b) := fun c b => W8 m ρ c b

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

section Region

variable (p : Fin 4) (lf : Pipeline.LaunchFacts (nD := nD) (τ := τ) cfgs p) (Wi : Dev nD → Valuation τ sig (Elt F)) (c : Dev nD)
  (hA : ∀ c w, (pdats m ρ p c).A w = Wi c (Proc.devRef .tc (Pipeline.arrRef (cfgs p).spec w)))

-- The contents at a region's exit: its arrays as the last grid point leaves them, every other buffer as at entry.
abbrev exitW : Valuation τ sig (Elt F) :=
  Pipeline.withArrays (cfgs p).spec c (Wi c) fun w => (pdats m ρ p c).arrAt w (cfgs p).N

include lf in
theorem exitW_arr (w : Fin (cfgs p).W) :
    exitW m ρ p Wi c (Proc.devRef .tc (Pipeline.arrRef (cfgs p).spec w)) = (pdats m ρ p c).arrAt w (cfgs p).N :=
  Pipeline.withArrays_arr _ lf.win.arr_inj c _ _ w

include lf hA in
-- Off the region's output arrays the exit contents are the entry contents.
theorem exitW_keep (b : Ref sig .tc) (hb : ∀ w, Pipeline.arrRef (cfgs p).spec w = b → ((cfgs p).win w).isOut = false) :
    exitW m ρ p Wi c (Proc.devRef .tc b) = Wi c (Proc.devRef .tc b) := by
  by_cases h : ∃ w, Pipeline.arrRef (cfgs p).spec w = b
  · obtain ⟨w, rfl⟩ := h
    exact (exitW_arr m ρ p lf Wi c w).trans (((pdats m ρ p c).arrAt_in w (hb w rfl) _).trans (hA c w))
  · exact Pipeline.withArrays_of_ne _ c _ _ b fun w e => h ⟨w, e⟩

end Region

variable (c : Dev nD) (b : Ref sig .tc)

theorem W2_arr (w : Fin cfg0.W) : W2 m ρ c (Proc.devRef .tc (Pipeline.arrRef spec0 w)) = (dat0 (V1 m ρ) c).arrAt w cfg0.N :=
  exitW_arr m ρ 0 launch0 _ c w
theorem W4_arr (w : Fin cfg1.W) : W4 m ρ c (Proc.devRef .tc (Pipeline.arrRef spec1 w)) = (dat1 (V3 m ρ) c).arrAt w cfg1.N :=
  exitW_arr m ρ 1 launch1 _ c w
theorem W6_arr (w : Fin cfg2.W) : W6 m ρ c (Proc.devRef .tc (Pipeline.arrRef spec2 w)) = (dat2 (V5 m ρ) c).arrAt w cfg2.N :=
  exitW_arr m ρ 2 launch2 _ c w
theorem W8_arr (w : Fin cfg3.W) : W8 m ρ c (Proc.devRef .tc (Pipeline.arrRef spec3 w)) = (dat3 (V7 m ρ) c).arrAt w cfg3.N :=
  exitW_arr m ρ 3 launch3 _ c w

theorem W1_keep (hb : b ∉ hostOps0_W) : W1 m ρ c (Proc.devRef .tc b) = W0 m ρ c (Proc.devRef .tc b) :=
  StableHlo.after_of_writes_sub hostOps0 _ hostOps0_writes hb
theorem W2_keep (hb : b ∉ ([main_v1] : List (Ref sig .tc))) : W2 m ρ c (Proc.devRef .tc b) = W1 m ρ c (Proc.devRef .tc b) :=
  exitW_keep m ρ 0 launch0 _ c (fun _ _ => rfl) b fun w e => by subst e; revert hb w; decide
theorem W3_keep (hb : b ∉ hostOps1_W) : W3 m ρ c (Proc.devRef .tc b) = W2 m ρ c (Proc.devRef .tc b) :=
  StableHlo.after_of_writes_sub hostOps1 _ hostOps1_writes hb
theorem W4_keep (hb : b ∉ ([main_v3] : List (Ref sig .tc))) : W4 m ρ c (Proc.devRef .tc b) = W3 m ρ c (Proc.devRef .tc b) :=
  exitW_keep m ρ 1 launch1 _ c (fun _ _ => rfl) b fun w e => by subst e; revert hb w; decide
theorem W5_keep (hb : b ∉ hostOps2_W) : W5 m ρ c (Proc.devRef .tc b) = W4 m ρ c (Proc.devRef .tc b) :=
  StableHlo.after_of_writes_sub hostOps2 _ hostOps2_writes hb
theorem W6_keep (hb : b ∉ ([main_v5_0, main_v5_1] : List (Ref sig .tc))) : W6 m ρ c (Proc.devRef .tc b) = W5 m ρ c (Proc.devRef .tc b) :=
  exitW_keep m ρ 2 launch2 _ c (fun _ _ => rfl) b fun w e => by subst e; revert hb w; decide
theorem W7_keep (hb : b ∉ hostOps3_W) : W7 m ρ c (Proc.devRef .tc b) = W6 m ρ c (Proc.devRef .tc b) :=
  StableHlo.after_of_writes_sub hostOps3 _ hostOps3_writes hb
theorem W8_keep (hb : b ∉ ([main_v7_0, main_v7_1] : List (Ref sig .tc))) : W8 m ρ c (Proc.devRef .tc b) = W7 m ρ c (Proc.devRef .tc b) :=
  exitW_keep m ρ 3 launch3 _ c (fun _ _ => rfl) b fun w e => by subst e; revert hb w; decide

-- A buffer no item writes ends at its launch contents.
theorem W8_launch
    (hb : b ∉ ([main_v0, main_v1, main_v2, main_v3, main_v4, main_v5_0, main_v5_1, main_v6, main_v7_0, main_v7_1] : List (Ref sig .tc))) :
    W8 m ρ c (Proc.devRef .tc b) = m ((c : Thread nD τ).loc b) := by
  have k : ∀ l : List (Ref sig .tc), (∀ x ∈ l, x ∈ _) → b ∉ l := fun l hl h => hb (hl b h)
  rw [W8_keep m ρ c b (k _ (by decide)), W7_keep m ρ c b (k _ (by decide)), W6_keep m ρ c b (k _ (by decide)),
    W5_keep m ρ c b (k _ (by decide)), W4_keep m ρ c b (k _ (by decide)), W3_keep m ρ c b (k _ (by decide)),
    W2_keep m ρ c b (k _ (by decide)), W1_keep m ρ c b (k _ (by decide))]

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev held (W : Dev nD → Valuation τ sig (Elt F)) (c : Dev nD) : sProp 𝕄 := iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- No item writes an argument: a memory with every unscoped buffer at the last contents holds each argument as launched.
theorem args_kept {mem : (ℓ : Loc nD τ sig) → Buf (Elt F) ℓ} (h : ∀ b ∈ Pipeline.ucRefs τ sig, mem (((c : Thread nD τ)).1, b) = W8 m ρ c b) :
    mem ((c : Thread nD τ).loc main_arg0) = m ((c : Thread nD τ).loc main_arg0)
      ∧ mem ((c : Thread nD τ).loc main_arg1) = m ((c : Thread nD τ).loc main_arg1)
      ∧ mem ((c : Thread nD τ).loc main_arg2) = m ((c : Thread nD τ).loc main_arg2)
      ∧ mem ((c : Thread nD τ).loc main_arg3) = m ((c : Thread nD τ).loc main_arg3)
      ∧ mem ((c : Thread nD τ).loc main_arg4) = m ((c : Thread nD τ).loc main_arg4)
      ∧ mem ((c : Thread nD τ).loc main_arg5) = m ((c : Thread nD τ).loc main_arg5)
      ∧ mem ((c : Thread nD τ).loc main_arg6) = m ((c : Thread nD τ).loc main_arg6)
      ∧ mem ((c : Thread nD τ).loc main_arg7) = m ((c : Thread nD τ).loc main_arg7)
      ∧ mem ((c : Thread nD τ).loc main_arg8) = m ((c : Thread nD τ).loc main_arg8)
      ∧ mem ((c : Thread nD τ).loc main_arg9) = m ((c : Thread nD τ).loc main_arg9) := by
  refine ⟨?_, ?_, ?_, ?_, ?_, ?_, ?_, ?_, ?_, ?_⟩ <;> exact (h _ (mem_uc _ (by decide))).trans (W8_launch m ρ c _ (by decide))

set_option backward.isDefEq.respectTransparency.types false in
-- A region as an item from the contents `Wi` to `exitW`: its arrays leave the unscoped buffers at entry and rejoin them at exit.
def regOf (p : Fin 4) (lf : Pipeline.LaunchFacts (nD := nD) (τ := τ) cfgs p) (Wi : Dev nD → Valuation τ sig (Elt F))
    (hb : ∀ c, Pipeline.BodyObligationLoose (pdats m ρ p c) defs₀ 𝒱₀ () Set.univ)
    (hi : ∀ c, (Pipeline.ΦA (cfgs p).spec c : sProp 𝕄) ⊢ (pdats m ρ p c).Φ 0)
    (hO : ∀ c, (pdats m ρ p c).Φ (Fin.last (cfgs p).N) ⊢ (Pipeline.ΦA (cfgs p).spec c : sProp 𝕄))
    (hA : ∀ c w, (pdats m ρ p c).A w = Wi c (Proc.devRef .tc (Pipeline.arrRef (cfgs p).spec w)) := by exact fun _ _ => rfl)
    (hq : ∀ c w, (pdats m ρ p c).q w = fullShare := by exact fun _ _ => rfl) (ho : ∀ c t, (pdats m ρ p c).owed t = 0 := by exact fun _ _ => rfl)
    (hr : ∀ c x, x ∈ (pdats m ρ p c).recorded 0 := by exact fun _ _ => trivial) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p ho
  pre := held Wi
  post := held (exitW m ρ p Wi)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (pcfgs (F := F)) adm (pdats m ρ) lf.win lf.arr_whole c
      ((pdats m ρ p c).share_full (hq c)) (fun b => Wi c b) (hA c)
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    rw [Pipeline.Dat.owesAt, ho]
    iexists W; iframe HO; ipureintro; exact fun x _ => Or.inl (hr c x)
  hin c := (show _ ⊢ (Pipeline.ΦA (cfgs p).spec c : sProp 𝕄) from by rw [Pipeline.ΦA]; iintro ⟨Hp, -, Hr⟩; iframe).trans (hi c)
  hout c := (hO c).trans (by rw [Pipeline.ΦA, Pipeline.ownSems0_none]; iintro ⟨Hr, Hp⟩; iframe; iempintro)
  hexit c := by
    have hjoin := Pipeline.unscopedBufs_of_arrays (pcfgs (F := F)) adm (Ix := Unit) (Name := ℕ) (U := UR sig nD τ) (Lvl := ℕ)
      lf.win lf.arr_whole c (pdats m ρ) ((pdats m ρ p c).share_full (hq c)) (fun b => Wi c b) (fun b => exitW m ρ p Wi c b)
      ((pdats m ρ p c).arrAt · (cfgs p).N) (fun w => (exitW_arr m ρ p lf Wi c w).symm)
      fun b hb => Pipeline.withArrays_of_ne _ c _ _ b fun w e => hb (Finset.mem_image.mpr ⟨w, Finset.mem_univ _, e⟩)
    rw [Pipeline.unscopedBufs_held] at hjoin
    rw [Pipeline.Dat.owesAt, ho]
    iintro ⟨Ha, ⟨%W, -, HO⟩, HY, Hrest⟩
    imodintro
    isplitl [Ha Hrest]
    · iapply hjoin; iframe
    isplitl [HY]; · iexact HY
    iexists W; iexact HO

set_option backward.isDefEq.respectTransparency.types false in
def reg0 := regOf m ρ 0 launch0 (W1 m ρ) (fun c => (body_obligation0 (V1 m ρ) c).loose) (hin0 _) (hout0 _)
set_option backward.isDefEq.respectTransparency.types false in
def reg1 := regOf m ρ 1 launch1 (W3 m ρ) (fun c => (body_obligation1 (V3 m ρ) c).loose) (hin1 _) (hout1 _)
set_option backward.isDefEq.respectTransparency.types false in
def reg2 := regOf m ρ 2 launch2 (W5 m ρ) (fun c => (body_obligation2 (V5 m ρ) c).loose) (hin2 _) (hout2 _)
set_option backward.isDefEq.respectTransparency.types false in
def reg3 := regOf m ρ 3 launch3 (W7 m ρ) (fun c => (body_obligation3 (V7 m ρ) c).loose) (hin3 _) (hout3 _)

-- @main's 8 items in order: a host item per stretch from the contents before it, a region per kernel call.
abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)), .region (reg3 m ρ) ]
theorem main_run (c : Dev nD) : main (F := F) c = Pipeline.Seg.run (segs m ρ) := (main_chain c).trans (by chain_rfl)

set_option backward.isDefEq.respectTransparency.types false in
-- Every weakly fair execution of @main from zero counters terminates without fault, every unscoped buffer ending at the last contents.
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact sep_emp.2.trans fupd_intro)
    (T₀ := held (W0 m ρ)) (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp] <;> iexists _ <;> iassumption)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      iframe)
    (hQ := fun s h => h)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev A2 (a b : Nat) : Type := (⟨2, ![a, b]⟩ : Shape).Idx → EReal
abbrev A1 (a : Nat) : Type := (⟨1, ![a]⟩ : Shape).Idx → EReal

def slope : EReal := Ideal.ofBits .f32 0x3C23D70A#32

-- Entry (n, d) of x · wᵀ + b.
def affine (x : A2 16384 64) (w : A2 64 64) (b : A2 1 64) (n : Fin 16384) (d : Fin 64) : EReal :=
  (∑ k : Fin 64, x (ix2 n k) * w (ix2 d k)) + b (ix2 (0 : Fin 1) d)

def affineArr (x : A2 16384 64) (w : A2 64 64) (b : A2 1 64) : A2 16384 64 := fun i => affine x w b (i 0) (i 1)

-- Entry (n, d) of the adjacency product e · p.
def agg (e : A2 16384 16384) (p : A2 16384 64) (n : Fin 16384) (d : Fin 64) : EReal :=
  ∑ j : Fin 16384, e (ix2 n j) * p (ix2 j d)

-- The leaky rectifier: v where v ≥ 0, slope · v elsewhere.
def leaky (v : EReal) : EReal := Scalar.select (Ideal.cmp .oge v 0) v (slope * v)

def leakyAgg (e : A2 16384 16384) (p : A2 16384 64) : A2 16384 64 := fun i => leaky (agg e p (i 0) (i 1))

def tanhAgg (e : A2 16384 16384) (p : A2 16384 64) : A2 16384 64 := fun i => Ideal.tanh (agg e p (i 0) (i 1))

-- The attention logit of node n.
def logit (h : A2 16384 64) (w2 : A2 1 64) (b2 : EReal) (n : Fin 16384) : EReal :=
  (∑ d : Fin 64, h (ix2 n d) * w2 (ix2 (0 : Fin 1) d)) + b2

def logitArr (h : A2 16384 64) (w2 : A2 1 64) (b2 : EReal) : A1 16384 := fun i => logit h w2 b2 (i 0)

-- The score of node j for row r: membership times the node's logit, plus the additive mask.
def score (mat mask : A2 512 16384) (a : A2 1 16384) (r : Fin 512) (j : Fin 16384) : EReal :=
  mat (ix2 r j) * a (ix2 (0 : Fin 1) j) + mask (ix2 r j)

def rowmax (z : Fin 16384 → EReal) : EReal := (Finset.univ : Finset (Fin 16384)).fold max ⊥ z

-- The softmax along row r of the scores z, at j.
def weight (z : Fin 512 → Fin 16384 → EReal) (r : Fin 512) (j : Fin 16384) : EReal :=
  Ideal.div (Ideal.exp (z r j - rowmax (z r))) (∑ j' : Fin 16384, Ideal.exp (z r j' - rowmax (z r)))

def weightArr (z : Fin 512 → Fin 16384 → EReal) : A2 512 16384 := fun i => weight z (i 0) (i 1)

def pool (w : Fin 512 → Fin 16384 → EReal) (h : A2 16384 64) (r : Fin 512) (d : Fin 64) : EReal :=
  ∑ j : Fin 16384, w r j * h (ix2 j d)

def poolArr (w : Fin 512 → Fin 16384 → EReal) (h : A2 16384 64) : A2 512 64 := fun i => pool w h (i 0) (i 1)

-- The ten arguments: features, adjacency, membership, additive mask, and the three layers' weights and biases.
structure Args where
  x : A2 16384 64
  e : A2 16384 16384
  mat : A2 512 16384
  mask : A2 512 16384
  W0 : A2 64 64
  b0 : A1 64
  W1 : A2 64 64
  b1 : A1 64
  w2 : A2 1 64
  b2 : A1 1

def row64 (b : A1 64) : A2 1 64 := fun i => b (ix1 (i 1))
def arow (a : A1 16384) : A2 1 16384 := fun i => a (ix1 (i 1))

def P0 (A : Args) : A2 16384 64 := affineArr A.x A.W0 (row64 A.b0)
def H1 (A : Args) : A2 16384 64 := leakyAgg A.e (P0 A)
def P1 (A : Args) : A2 16384 64 := affineArr (H1 A) A.W1 (row64 A.b1)
def H (A : Args) : A2 16384 64 := tanhAgg A.e (P1 A)
def Alog (A : Args) : A1 16384 := logitArr (H A) A.w2 (A.b2 (ix1 (0 : Fin 1)))
def Z (A : Args) (r : Fin 512) (j : Fin 16384) : EReal := score A.mat A.mask (arow (Alog A)) r j
-- The second result: the softmax weights.
def Wt (A : Args) : A2 512 16384 := weightArr (Z A)
-- The first result: the pooled features.
def Pooled (A : Args) : A2 512 64 := poolArr (weight (Z A)) (H A)

end Cert.Spec

end
-- ==== Proof.KI.Val0.lean ====
import proofs.«404698_j11304353923438_3_alg».proof.Proof.KI.Reg0
import proofs.«404698_j11304353923438_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen Idealize.ShloMosaic Idealize.ShloMosaic.ValueIdx
open Idealize.ShloMosaic.TcCoe Idealize.SL.Sem
open Idealize.ShloMosaic.Pipeline (Dat)
open scoped BigOperators

abbrev dot0 : DotDims S2048x64 S64x64 S2048x64 := dot_S2048x64_S64x64_S2048x64_1_0_0_1_n_n

theorem lhs_proj0_0 (i : S2048x64.Idx) (q : dot0.contr.Idx) :
    (dot0.lhsIdx i q 0).val = (i 0).val := by
  unfold DotDims.lhsIdx
  rw [dif_neg (show ¬(0 : Fin S2048x64.rank) ∈ dot0.lhsBatch by decide), dif_pos (show (0 : Fin S2048x64.rank) ∈ dot0.lhsNonContracting by decide)]
  rfl
theorem lhs_proj0_1 (i : S2048x64.Idx) (q : dot0.contr.Idx) :
    (dot0.lhsIdx i q 1).val = (q ⟨0, by decide⟩).val :=
  dot0.lhsIdx_val_of_single rfl i q
theorem rhs_proj0_0 (i : S2048x64.Idx) (q : dot0.contr.Idx) :
    (dot0.rhsIdx i q 0).val = (q ⟨0, by decide⟩).val :=
  dot0.rhsIdx_val_of_single rfl i q
theorem rhs_proj0_1 (i : S2048x64.Idx) (q : dot0.contr.Idx) :
    (dot0.rhsIdx i q 1).val = (i 1).val := by
  unfold DotDims.rhsIdx
  rw [dif_neg (show ¬(1 : Fin S64x64.rank) ∈ dot0.rhsBatch by decide), dif_pos (show (1 : Fin S64x64.rank) ∈ dot0.rhsNonContracting by decide)]
  rfl

theorem matmul0_apply (a : FVec Ideal S2048x64 .bf16) (b : FVec Ideal S64x64 .bf16) (p : Fin 2048) (q : Fin 64) :
    matmul dot0 none a b (constant (F := Ideal) S2048x64 .f32 0x00000000#32) (ix2 p q)
      = ∑ k : Fin 64, a (ix2 p k) * b (ix2 k q) := by
  refine (Ideal.matmul_constant_zero_apply dot0 none a b (ix2 p q)).trans ?_
  rw [← Equiv.sum_comp (contrEquiv1 dot0 64 rfl rfl).symm]
  refine Finset.sum_congr rfl fun k _ => ?_
  have hk := contrEquiv1_symm_val dot0 64 rfl rfl k
  congr 2
  · funext c; apply Fin.ext
    match c with
    | ⟨0, _⟩ => exact lhs_proj0_0 _ _
    | ⟨1, _⟩ => exact (lhs_proj0_1 _ _).trans hk
  · funext c; apply Fin.ext
    match c with
    | ⟨0, _⟩ => exact (rhs_proj0_0 _ _).trans hk
    | ⟨1, _⟩ => exact rhs_proj0_1 _ _

theorem pay0_apply (x : Vec Ideal S2048x64 .f32) (w : Vec Ideal S64x64 .f32) (b : Vec Ideal S1x64 .f32) (p : Fin 2048) (q : Fin 64) :
    k0_pay1 x w b (ix2 p q) = (∑ k : Fin 64, x (ix2 p k) * w (ix2 q k)) + b (ix2 (0 : Fin 1) q) := by
  unfold k0_pay1
  refine (congrArg₂ (· + ·)
    (matmul0_apply (truncf .bf16 x bitsLt_bf16_f32) (transpose S64x64 [1, 0] (truncf .bf16 w bitsLt_bf16_f32) transposes_S64x64_p1_0_S64x64) p q)
    (broadcastTo_1b_ab_apply (shapeCast S1x64 b shapeCasts_S1x64_S1x64) broadcasts_S1x64_S2048x64 p q)).trans ?_
  rw [shapeCast_self]
  refine congrArg (· + b (ix2 (0 : Fin 1) q)) (Finset.sum_congr rfl fun k _ => ?_)
  rw [transpose_ix2_apply]
  rfl

theorem pay0_eq_affine (X : Cert.Spec.A2 16384 64) (W : Cert.Spec.A2 64 64) (B : Cert.Spec.A2 1 64)
    (x : Vec Ideal S2048x64 .f32) (w : Vec Ideal S64x64 .f32) (b : Vec Ideal S1x64 .f32)
    (p : Fin 2048) (q : Fin 64) (i : S16384x64.Idx)
    (hx : ∀ k : Fin 64, x (ix2 p k) = X (ix2 (i 0) k))
    (hw : ∀ k : Fin 64, w (ix2 q k) = W (ix2 (i 1) k))
    (hb : b (ix2 (0 : Fin 1) q) = B (ix2 (0 : Fin 1) (i 1))) :
    k0_pay1 x w b (ix2 p q) = Cert.Spec.affineArr X W B i := by
  rw [pay0_apply]
  unfold Cert.Spec.affineArr Cert.Spec.affine
  rw [hb]
  exact congrArg (· + B (ix2 (0 : Fin 1) (i 1))) (Finset.sum_congr rfl fun k _ => by rw [hx k, hw k])

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed0_3_eq (c : Dev nD) (t : Fin cfg0.N) :
    (dat0 V c).flushed 3 t = ((cfg0.win 3).blk t).view.read (Elt Ideal) (Cert.Spec.affineArr (V c main_arg0) (V c main_arg4) (V c main_v0)) := by
  show (cfg0.win 3).cut (grid0.coords t) ((dat0 V c).after 3 t) = _
  rw [after0_3]
  unfold out0_3
  rw [View.canon_unit_zero hz0]
  simp only [View.ld_unit_zero (S := S2048x64) hz0, View.ld_unit_zero (S := S64x64) hz0, View.ld_unit_zero (S := S1x64) hz0]
  obtain ⟨e0, e1, e2, e3, e4, e5, e6, e7⟩ := idx_facts0 t
  funext j
  obtain ⟨p, q, rfl⟩ : ∃ (p : Fin 2048) (q : Fin 64), j = ix2 p q := ⟨j 0, j 1, eq_ix2 j⟩
  refine pay0_eq_affine (V c main_arg0) (V c main_arg4) (V c main_v0) (iblk0 V c 0 t) (iblk0 V c 1 t) (iblk0 V c 2 t) p q
    (((cfg0.win 3).blk t).view.emb (ix2 p q)) (fun k => ?_) (fun k => ?_) ?_
  · show V c main_arg0 (((cfg0.win 0).blk t).view.emb (ix2 p k)) = V c main_arg0 (ix2 ((((cfg0.win 3).blk t).view.emb (ix2 p q)) 0) k)
    refine congrArg (V c main_arg0) (funext fun a => Fin.ext ?_)
    match a with
    | ⟨0, _⟩ => show win0_0.index t (0 : Fin 2) * 2048 + 1 * p.val = win0_3.index t (0 : Fin 2) * 2048 + 1 * p.val; omega
    | ⟨1, _⟩ => show win0_0.index t (1 : Fin 2) * 64 + 1 * k.val = k.val; omega
  · show V c main_arg4 (((cfg0.win 1).blk t).view.emb (ix2 q k)) = V c main_arg4 (ix2 ((((cfg0.win 3).blk t).view.emb (ix2 p q)) 1) k)
    refine congrArg (V c main_arg4) (funext fun a => Fin.ext ?_)
    match a with
    | ⟨0, _⟩ => show win0_1.index t (0 : Fin 2) * 64 + 1 * q.val = win0_3.index t (1 : Fin 2) * 64 + 1 * q.val; omega
    | ⟨1, _⟩ => show win0_1.index t (1 : Fin 2) * 64 + 1 * k.val = k.val; omega
  · show V c main_v0 (((cfg0.win 2).blk t).view.emb (ix2 (0 : Fin 1) q)) = V c main_v0 (ix2 (0 : Fin 1) ((((cfg0.win 3).blk t).view.emb (ix2 p q)) 1))
    refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega

theorem mem_blk0_3 (t : Fin cfg0.N) (i : S16384x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v1).slice (win0_3.rect t)).set ↔ _
  rw [View.set_slice_whole, Rect.mem_set_unit]
  exact Iff.rfl

theorem covered0_3 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 8 := N_0
  have ht : (i 0).val / 2048 < cfg0.N := by rw [hN]; omega
  obtain ⟨e0, e1, e2, e3, e4, e5, e6, e7⟩ := idx_facts0 ⟨(i 0).val / 2048, ht⟩
  refine ⟨⟨(i 0).val / 2048, ht⟩, flush0_3 _, ?_⟩
  rw [mem_blk0_3]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, ht⟩ (1 : Fin 2) * 64 ≤ (i 1).val ∧ (i 1).val < win0_3.index ⟨(i 0).val / 2048, ht⟩ (1 : Fin 2) * 64 + 64
    rw [e7]; omega

theorem final0_3 (c : Dev nD) : (dat0 V c).arrAt 3 cfg0.N = Cert.Spec.affineArr (V c main_arg0) (V c main_arg4) (V c main_v0) :=
  (dat0 V c).arrAt_eq_of_cover 3 (Cert.Spec.affineArr (V c main_arg0) (V c main_arg4) (V c main_v0)) (fun t _ => flushed0_3_eq V c t) covered0_3

end Cert.KernelIdeal.Hand

end
-- ==== Proof.LibBlockSum.lean ====
import Idealize.ShloMosaic.PureOps.Ideal

noncomputable section

open scoped BigOperators

namespace Cert.BlockSum

-- The sum of f over the first n blocks of 2048 indices.
def part (f : Fin 16384 → EReal) (n : ℕ) : EReal := ∑ j ∈ (Finset.univ : Finset (Fin 16384)).filter (fun j => j.val < 2048 * n), f j

theorem part_zero (f : Fin 16384 → EReal) : part f 0 = 0 :=
  (Finset.sum_congr (Finset.filter_false_of_mem fun j _ => by omega) fun _ _ => rfl).trans Finset.sum_empty

-- The indices below 2048·(n+1) are those below 2048·n together with the block 2048·n + l, l < 2048, each once.
theorem part_succ (f : Fin 16384 → EReal) (n : ℕ) (hn : n < 8) : part f (n + 1) = part f n + ∑ l : Fin 2048, f ⟨2048 * n + l.val, by omega⟩ := by
  unfold part
  rw [← Finset.sum_filter_add_sum_filter_not (Finset.univ.filter fun j : Fin 16384 => j.val < 2048 * (n + 1)) (fun j => j.val < 2048 * n),
    Finset.filter_filter, Finset.filter_filter]
  refine congrArg₂ (· + ·) (Finset.sum_congr (Finset.filter_congr fun j _ => ⟨fun h => h.2, fun h => ⟨by omega, h⟩⟩) fun _ _ => rfl) ?_
  symm
  refine Finset.sum_bij (fun l _ => (⟨2048 * n + l.val, by omega⟩ : Fin 16384)) ?_ ?_ ?_ fun _ _ => rfl
  · intro l _
    simp only [Finset.mem_filter, Finset.mem_univ, true_and]
    omega
  · intro a _ b _ h
    have h' : 2048 * n + a.val = 2048 * n + b.val := congrArg Fin.val h
    exact Fin.ext (by omega)
  · intro j hj
    simp only [Finset.mem_filter, Finset.mem_univ, true_and] at hj
    exact ⟨⟨j.val - 2048 * n, by omega⟩, Finset.mem_univ _, Fin.ext (by show 2048 * n + (j.val - 2048 * n) = j.val; omega)⟩

theorem part_eight (f : Fin 16384 → EReal) : part f 8 = ∑ j : Fin 16384, f j :=
  Finset.sum_congr (Finset.filter_true_of_mem fun j _ => by omega) fun _ _ => rfl

end Cert.BlockSum

end
-- ==== Proof.KI.Val1.lean ====
import proofs.«404698_j11304353923438_3_alg».proof.Proof.KI.Reg1
import proofs.«404698_j11304353923438_3_alg».proof.Proof.Spec
import proofs.«404698_j11304353923438_3_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal.Gen Idealize.ShloMosaic Idealize.ShloMosaic.ValueIdx
open Idealize.ShloMosaic.TcCoe Idealize.ShloMosaic.Tactic Idealize.SL.Sem
open Idealize.ShloMosaic.Pipeline (Dat)

theorem lhs1a_0 (j : S1024x64.Idx) (k : dot_S1024x2048_S2048x64_S1024x64_1_0_0_1_n_n.contr.Idx) :
    (dot_S1024x2048_S2048x64_S1024x64_1_0_0_1_n_n.lhsIdx j k 0 : ℕ) = j 0 := by
  simp [DotDims.lhsIdx, dot_S1024x2048_S2048x64_S1024x64_1_0_0_1_n_n]; rfl
theorem lhs1a_1 (j : S1024x64.Idx) (k : dot_S1024x2048_S2048x64_S1024x64_1_0_0_1_n_n.contr.Idx) :
    (dot_S1024x2048_S2048x64_S1024x64_1_0_0_1_n_n.lhsIdx j k 1 : ℕ) = k ⟨0, by decide⟩ := by
  simp [DotDims.lhsIdx, dot_S1024x2048_S2048x64_S1024x64_1_0_0_1_n_n]; rfl
theorem rhs1a_0 (j : S1024x64.Idx) (k : dot_S1024x2048_S2048x64_S1024x64_1_0_0_1_n_n.contr.Idx) :
    (dot_S1024x2048_S2048x64_S1024x64_1_0_0_1_n_n.rhsIdx j k 0 : ℕ) = k ⟨0, by decide⟩ := by
  simp [DotDims.rhsIdx, dot_S1024x2048_S2048x64_S1024x64_1_0_0_1_n_n]; rfl
theorem rhs1a_1 (j : S1024x64.Idx) (k : dot_S1024x2048_S2048x64_S1024x64_1_0_0_1_n_n.contr.Idx) :
    (dot_S1024x2048_S2048x64_S1024x64_1_0_0_1_n_n.rhsIdx j k 1 : ℕ) = j 1 := by
  simp [DotDims.rhsIdx, dot_S1024x2048_S2048x64_S1024x64_1_0_0_1_n_n]; rfl

theorem lhs1b_0 (j : S1024x64.Idx) (k : dot_S1024x64_S64x64_S1024x64_1_0_0_1_n_n.contr.Idx) :
    (dot_S1024x64_S64x64_S1024x64_1_0_0_1_n_n.lhsIdx j k 0 : ℕ) = j 0 := by
  simp [DotDims.lhsIdx, dot_S1024x64_S64x64_S1024x64_1_0_0_1_n_n]; rfl
theorem lhs1b_1 (j : S1024x64.Idx) (k : dot_S1024x64_S64x64_S1024x64_1_0_0_1_n_n.contr.Idx) :
    (dot_S1024x64_S64x64_S1024x64_1_0_0_1_n_n.lhsIdx j k 1 : ℕ) = k ⟨0, by decide⟩ := by
  simp [DotDims.lhsIdx, dot_S1024x64_S64x64_S1024x64_1_0_0_1_n_n]; rfl
theorem rhs1b_0 (j : S1024x64.Idx) (k : dot_S1024x64_S64x64_S1024x64_1_0_0_1_n_n.contr.Idx) :
    (dot_S1024x64_S64x64_S1024x64_1_0_0_1_n_n.rhsIdx j k 0 : ℕ) = k ⟨0, by decide⟩ := by
  simp [DotDims.rhsIdx, dot_S1024x64_S64x64_S1024x64_1_0_0_1_n_n]; rfl
theorem rhs1b_1 (j : S1024x64.Idx) (k : dot_S1024x64_S64x64_S1024x64_1_0_0_1_n_n.contr.Idx) :
    (dot_S1024x64_S64x64_S1024x64_1_0_0_1_n_n.rhsIdx j k 1 : ℕ) = j 1 := by
  simp [DotDims.rhsIdx, dot_S1024x64_S64x64_S1024x64_1_0_0_1_n_n]; rfl

theorem mm1a_apply (lhs : FVec Ideal S1024x2048 .bf16) (rhs : FVec Ideal S2048x64 .bf16) (p : Fin 1024) (q : Fin 64) :
    matmul dot_S1024x2048_S2048x64_S1024x64_1_0_0_1_n_n none lhs rhs (constant (F := Ideal) S1024x64 .f32 0x00000000#32) (ix2 p q)
      = ∑ l : Fin 2048, lhs (ix2 p l) * rhs (ix2 l q) := by
  refine (Ideal.matmul_constant_zero_apply dot_S1024x2048_S2048x64_S1024x64_1_0_0_1_n_n none lhs rhs (ix2 p q)).trans ?_
  rw [← Equiv.sum_comp (contrEquiv1 dot_S1024x2048_S2048x64_S1024x64_1_0_0_1_n_n 2048 rfl rfl).symm]
  refine Finset.sum_congr rfl fun l _ => ?_
  have hk := contrEquiv1_symm_val dot_S1024x2048_S2048x64_S1024x64_1_0_0_1_n_n 2048 rfl rfl l
  congr 1
  · refine congrArg lhs (funext fun a => Fin.ext ?_)
    match a with
    | ⟨0, _⟩ => exact lhs1a_0 _ _
    | ⟨1, _⟩ => exact (lhs1a_1 _ _).trans hk
  · refine congrArg rhs (funext fun a => Fin.ext ?_)
    match a with
    | ⟨0, _⟩ => exact (rhs1a_0 _ _).trans hk
    | ⟨1, _⟩ => exact rhs1a_1 _ _

theorem mm1b_apply (lhs : FVec Ideal S1024x64 .bf16) (rhs : FVec Ideal S64x64 .bf16) (p : Fin 1024) (q : Fin 64) :
    matmul dot_S1024x64_S64x64_S1024x64_1_0_0_1_n_n none lhs rhs (constant (F := Ideal) S1024x64 .f32 0x00000000#32) (ix2 p q)
      = ∑ d : Fin 64, lhs (ix2 p d) * rhs (ix2 d q) := by
  refine (Ideal.matmul_constant_zero_apply dot_S1024x64_S64x64_S1024x64_1_0_0_1_n_n none lhs rhs (ix2 p q)).trans ?_
  rw [← Equiv.sum_comp (contrEquiv1 dot_S1024x64_S64x64_S1024x64_1_0_0_1_n_n 64 rfl rfl).symm]
  refine Finset.sum_congr rfl fun l _ => ?_
  have hk := contrEquiv1_symm_val dot_S1024x64_S64x64_S1024x64_1_0_0_1_n_n 64 rfl rfl l
  congr 1
  · refine congrArg lhs (funext fun a => Fin.ext ?_)
    match a with
    | ⟨0, _⟩ => exact lhs1b_0 _ _
    | ⟨1, _⟩ => exact (lhs1b_1 _ _).trans hk
  · refine congrArg rhs (funext fun a => Fin.ext ?_)
    match a with
    | ⟨0, _⟩ => exact (rhs1b_0 _ _).trans hk
    | ⟨1, _⟩ => exact rhs1b_1 _ _

theorem pay1_1_apply (p : Fin 1024) (q : Fin 64) : (k1_pay1 (F := Ideal)) (ix2 p q) = 0 := by
  unfold k1_pay1
  rw [shapeCast_self]
  exact Ideal.ofBits_zero_f32

theorem pay1_2_apply (x0 : Vec Ideal S1024x2048 .f32) (x1 : Vec Ideal S2048x64 .bf16) (acc : Vec Ideal S1024x64 .f32)
    (p : Fin 1024) (q : Fin 64) :
    k1_pay2 x0 x1 acc (ix2 p q) = acc (ix2 p q) + ∑ l : Fin 2048, x0 (ix2 p l) * x1 (ix2 l q) := by
  unfold k1_pay2
  rw [shapeCast_self, shapeCast_self]
  refine (addf_apply _ _ _).trans ?_
  exact congrArg (acc (ix2 p q) + ·) (mm1a_apply _ _ p q)

theorem pay1_3_apply (acc : Vec Ideal S1024x64 .f32) (w : Vec Ideal S64x64 .f32) (b : Vec Ideal S1x64 .f32)
    (p : Fin 1024) (q : Fin 64) :
    k1_pay3 acc w b (ix2 p q)
      = (∑ d : Fin 64, Cert.Spec.leaky (acc (ix2 p d)) * w (ix2 q d)) + b (ix2 (0 : Fin 1) q) := by
  unfold k1_pay3
  rw [shapeCast_self]
  refine (truncf_apply (φ := .f32) (ψ := .bf16) _ bitsLt_bf16_f32 (ix2 p q)).trans ?_
  refine (addf_apply (φ := .f32) _ _ (ix2 p q)).trans ?_
  congr 1
  · refine (mm1b_apply _ _ p q).trans ?_
    refine Finset.sum_congr rfl fun d _ => ?_
    congr 1
    · show Scalar.select (Ideal.cmp .oge (acc (ix2 p d)) (Ideal.ofBits .f32 0x00000000#32)) (acc (ix2 p d)) (Ideal.ofBits .f32 0x3C23D70A#32 * acc (ix2 p d)) = Cert.Spec.leaky (acc (ix2 p d))
      rw [Ideal.ofBits_zero_f32]; rfl
    · exact transpose_ix2_apply _ _ d q
  · exact broadcastTo_apply _ _ _ (ix2 (0 : Fin 1) q) fun a => by
      match a with
      | ⟨0, _⟩ => rfl
      | ⟨1, _⟩ => rfl

variable (V : (c : Dev nD) → (b : Ref sig .tc) → Buf (Elt Ideal) ((c : Thread nD τ).loc b))

abbrev eblk1 (c : Dev nD) (t : Fin cfg1.N) : Vec Ideal S1024x2048 .f32 := iblk1 V c 0 t
abbrev pblk1 (c : Dev nD) (t : Fin cfg1.N) : Vec Ideal S2048x64 .bf16 := iblk1 V c 1 t
abbrev wblk1 (c : Dev nD) (t : Fin cfg1.N) : Vec Ideal S64x64 .f32 := iblk1 V c 2 t
abbrev bblk1 (c : Dev nD) (t : Fin cfg1.N) : Vec Ideal S1x64 .f32 := iblk1 V c 3 t

abbrev earr1 (c : Dev nD) : Cert.Spec.A2 16384 16384 := V c main_arg1
abbrev parr1 (c : Dev nD) : Cert.Spec.A2 16384 64 := V c main_v1
abbrev warr1 (c : Dev nD) : Cert.Spec.A2 64 64 := V c main_arg6
abbrev barr1 (c : Dev nD) : Cert.Spec.A2 1 64 := V c main_v2

theorem idx1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0 :=
  (by decide +kernel : ∀ t : Fin grid1.N, _)

theorem eblk1_apply (c : Dev nD) (t : Fin cfg1.N) (p : Fin 1024) (l : Fin 2048) (r j : Fin 16384)
    (hr : r.val = 1024 * (t.val / 8) + p.val) (hj : j.val = 2048 * (t.val % 8) + l.val) :
    eblk1 V c t (ix2 p l) = earr1 V c (ix2 r j) := by
  obtain ⟨e0, e1, -⟩ := idx1 t
  unfold eblk1 iblk1
  rw [View.read_apply]
  show V c main_arg1 _ = V c main_arg1 _
  congr 1
  funext a
  apply Fin.ext
  match a with
  | ⟨0, _⟩ => show win1_0.index t (0 : Fin 2) * 1024 + 1 * p.val = r.val; omega
  | ⟨1, _⟩ => show win1_0.index t (1 : Fin 2) * 2048 + 1 * l.val = j.val; omega

theorem pblk1_apply (c : Dev nD) (t : Fin cfg1.N) (l : Fin 2048) (q : Fin 64) (j : Fin 16384)
    (hj : j.val = 2048 * (t.val % 8) + l.val) :
    pblk1 V c t (ix2 l q) = parr1 V c (ix2 j q) := by
  obtain ⟨-, -, e2, e3, -⟩ := idx1 t
  unfold pblk1 iblk1
  rw [View.read_apply]
  show V c main_v1 _ = V c main_v1 _
  congr 1
  funext a
  apply Fin.ext
  match a with
  | ⟨0, _⟩ => show win1_1.index t (0 : Fin 2) * 2048 + 1 * l.val = j.val; omega
  | ⟨1, _⟩ => show win1_1.index t (1 : Fin 2) * 64 + 1 * q.val = q.val; omega

theorem wblk1_apply (c : Dev nD) (t : Fin cfg1.N) (a b : Fin 64) : wblk1 V c t (ix2 a b) = warr1 V c (ix2 a b) := by
  obtain ⟨-, -, -, -, e4, e5, -⟩ := idx1 t
  unfold wblk1 iblk1
  rw [View.read_apply]
  show V c main_arg6 _ = V c main_arg6 _
  congr 1
  funext x
  apply Fin.ext
  match x with
  | ⟨0, _⟩ => show win1_2.index t (0 : Fin 2) * 64 + 1 * a.val = a.val; omega
  | ⟨1, _⟩ => show win1_2.index t (1 : Fin 2) * 64 + 1 * b.val = b.val; omega

theorem bblk1_apply (c : Dev nD) (t : Fin cfg1.N) (b : Fin 64) : bblk1 V c t (ix2 (0 : Fin 1) b) = barr1 V c (ix2 (0 : Fin 1) b) := by
  obtain ⟨-, -, -, -, -, -, e6, e7, -⟩ := idx1 t
  unfold bblk1 iblk1
  rw [View.read_apply]
  show V c main_v2 _ = V c main_v2 _
  congr 1
  funext x
  apply Fin.ext
  match x with
  | ⟨0, _⟩ => show win1_3.index t (0 : Fin 2) * 1 + 1 * 0 = 0; omega
  | ⟨1, _⟩ => show win1_3.index t (1 : Fin 2) * 64 + 1 * b.val = b.val; omega

abbrev term1 (c : Dev nD) (r : Fin 16384) (q : Fin 64) : Fin 16384 → EReal :=
  fun j => earr1 V c (ix2 r j) * parr1 V c (ix2 j q)

theorem step1 (c : Dev nD) (t : Fin cfg1.N) (acc : Vec Ideal S1024x64 .f32) (p : Fin 1024) (q : Fin 64) (r : Fin 16384)
    (hr : r.val = 1024 * (t.val / 8) + p.val)
    (hacc : acc (ix2 p q) = Cert.BlockSum.part (term1 V c r q) (t.val % 8)) :
    k1_pay2 (eblk1 V c t) (pblk1 V c t) acc (ix2 p q) = Cert.BlockSum.part (term1 V c r q) (t.val % 8 + 1) := by
  have hk : t.val % 8 < 8 := Nat.mod_lt _ (by decide)
  refine (pay1_2_apply (eblk1 V c t) (pblk1 V c t) acc p q).trans ?_
  refine Eq.trans ?_ (Cert.BlockSum.part_succ (term1 V c r q) (t.val % 8) hk).symm
  rw [hacc]
  refine congrArg (Cert.BlockSum.part (term1 V c r q) (t.val % 8) + ·) (Finset.sum_congr rfl fun l _ => ?_)
  show eblk1 V c t (ix2 p l) * pblk1 V c t (ix2 l q) = _
  rw [eblk1_apply V c t p l r ⟨2048 * (t.val % 8) + l.val, by omega⟩ hr rfl,
    pblk1_apply V c t l q ⟨2048 * (t.val % 8) + l.val, by omega⟩ rfl]

-- After the body at position n = 8·m + k the accumulator's entry (p, q) is the partial sum, over the first k + 1 blocks of nodes, of the adjacency product's summands at row 1024·m + p.
theorem acc1_part (c : Dev nD) (n : ℕ) : ∀ (hn : n < cfg1.N) (p : Fin 1024) (q : Fin 64) (r : Fin 16384),
    r.val = 1024 * (n / 8) + p.val →
    acc1 V c n hn (ix2 p q) = Cert.BlockSum.part (term1 V c r q) (n % 8 + 1) := by
  induction n with
  | zero =>
    intro hn p q r hr
    exact step1 V c ⟨0, hn⟩ (k1_pay1 (F := Ideal)) p q r hr (by rw [pay1_1_apply]; exact (Cert.BlockSum.part_zero _).symm)
  | succ n ih =>
    intro hn p q r hr
    show k1_pay2 (eblk1 V c ⟨n + 1, hn⟩) (pblk1 V c ⟨n + 1, hn⟩) (if (n + 1) % 8 = 0 then k1_pay1 (F := Ideal) else acc1 V c n (Nat.lt_of_succ_lt hn)) (ix2 p q) = _
    by_cases h0 : (n + 1) % 8 = 0
    · rw [if_pos h0]
      refine step1 V c ⟨n + 1, hn⟩ _ p q r hr ?_
      show _ = Cert.BlockSum.part _ ((n + 1) % 8)
      rw [pay1_1_apply, h0]; exact (Cert.BlockSum.part_zero _).symm
    · rw [if_neg h0]
      refine step1 V c ⟨n + 1, hn⟩ _ p q r hr ?_
      show _ = Cert.BlockSum.part _ ((n + 1) % 8)
      rw [show (n + 1) % 8 = n % 8 + 1 from by omega]
      exact ih (Nat.lt_of_succ_lt hn) p q r (by omega)

-- At a point t = 8·m + 7 the accumulator holds the sum over all 8 blocks, so the stored block's entry (p, q) is the affine map of the rectified adjacency product at row 1024·m + p.
theorem out1_at (c : Dev nD) (t : Fin cfg1.N) (h1 : t.val % 8 = 7) (p : Fin 1024) (q : Fin 64) (r : Fin 16384)
    (hr : r.val = 1024 * (t.val / 8) + p.val) :
    k1_pay3 (acc1 V c t.val t.isLt) (wblk1 V c t) (bblk1 V c t) (ix2 p q)
      = Cert.Spec.affine (Cert.Spec.leakyAgg (earr1 V c) (parr1 V c)) (warr1 V c) (barr1 V c) r q := by
  refine (pay1_3_apply _ (wblk1 V c t) (bblk1 V c t) p q).trans ?_
  unfold Cert.Spec.affine
  refine congrArg₂ (· + ·) ?_ ?_
  · refine Finset.sum_congr rfl fun d _ => ?_
    refine congrArg₂ (· * ·) ?_ ?_
    · show Cert.Spec.leaky _ = Cert.Spec.leaky (Cert.Spec.agg (earr1 V c) (parr1 V c) r d)
      refine congrArg Cert.Spec.leaky ?_
      refine (acc1_part V c t.val t.isLt p d r hr).trans ?_
      rw [h1]
      exact Cert.BlockSum.part_eight (term1 V c r d)
    · exact wblk1_apply V c t q d
  · exact bblk1_apply V c t q

abbrev G1 (c : Dev nD) : Cert.Spec.A2 16384 64 :=
  Cert.Spec.affineArr (Cert.Spec.leakyAgg (V c main_arg1) (V c main_v1)) (V c main_arg6) (V c main_v2)

theorem flushed1_4_eq (c : Dev nD) (t : Fin cfg1.N) (hf : (cfg1.win 4).flush t = true) :
    (dat1 V c).flushed 4 t = ((cfg1.win 4).blk t).view.read (Elt Ideal) (G1 V c) := by
  have h1 : t.val % 8 = 7 := (flush1_4 t).mp hf
  have hN : cfg1.N = 128 := N_1
  obtain ⟨-, -, -, -, -, -, -, -, e8, e9⟩ := idx1 t
  show (cfg1.win 4).cut (grid1.coords t) ((dat1 V c).after 4 t) = _
  funext j
  obtain ⟨p, q, rfl⟩ : ∃ (p : Fin 1024) (q : Fin 64), j = ix2 p q := ⟨j 0, j 1, eq_ix2 j⟩
  have ht : t.val < 128 := lt_of_lt_of_eq t.isLt hN
  have hi : ((cfg1.win 4).blk t).view.emb (ix2 p q) = (ix2 (⟨1024 * (t.val / 8) + p.val, by omega⟩ : Fin 16384) q : S16384x64.Idx) := by
    funext a
    apply Fin.ext
    match a with
    | ⟨0, _⟩ => show win1_4.index t (0 : Fin 2) * 1024 + 1 * p.val = 1024 * (t.val / 8) + p.val; omega
    | ⟨1, _⟩ => show win1_4.index t (1 : Fin 2) * 64 + 1 * q.val = q.val; omega
  show k1_pay3 (acc1 V c t.val t.isLt) (wblk1 V c t) (bblk1 V c t) (ix2 p q) = G1 V c (((cfg1.win 4).blk t).view.emb (ix2 p q))
  rw [hi]
  exact out1_at V c t h1 p q ⟨1024 * (t.val / 8) + p.val, by omega⟩ rfl

theorem mem_blk1_4 (t : Fin cfg1.N) (i : S16384x64.Idx) :
    i ∈ ((cfg1.win 4).blk t).view.set ↔ ∀ a : Fin 2, win1_4.index t a * S1024x64.size a ≤ (i a).val ∧ (i a).val < win1_4.index t a * S1024x64.size a + S1024x64.size a := by
  show i ∈ ((View.whole main_v3).slice (win1_4.rect t)).set ↔ _
  rw [View.set_slice_whole, Rect.mem_set_unit]
  exact Iff.rfl

theorem cover1_4 (i : S16384x64.Idx) : ∃ t : Fin cfg1.N, (cfg1.win 4).flush t = true ∧ i ∈ ((cfg1.win 4).blk t).view.set := by
  have hi0 : (i 0).val < 16384 := (i 0).isLt
  have hi1 : (i 1).val < 64 := (i 1).isLt
  have hN : cfg1.N = 128 := N_1
  have hlt : 8 * ((i 0).val / 1024) + 7 < cfg1.N := by rw [hN]; omega
  obtain ⟨-, -, -, -, -, -, -, -, e8, e9⟩ := idx1 ⟨8 * ((i 0).val / 1024) + 7, hlt⟩
  have e8' : win1_4.index ⟨8 * ((i 0).val / 1024) + 7, hlt⟩ (0 : Fin 2) = (8 * ((i 0).val / 1024) + 7) / 8 := e8
  refine ⟨⟨8 * ((i 0).val / 1024) + 7, hlt⟩, (flush1_4 _).mpr (by show (8 * ((i 0).val / 1024) + 7) % 8 = 7; omega), ?_⟩
  rw [mem_blk1_4]
  intro a
  match a with
  | ⟨0, _⟩ =>
    show win1_4.index ⟨8 * ((i 0).val / 1024) + 7, hlt⟩ (0 : Fin 2) * 1024 ≤ (i 0).val ∧ (i 0).val < win1_4.index ⟨8 * ((i 0).val / 1024) + 7, hlt⟩ (0 : Fin 2) * 1024 + 1024
    omega
  | ⟨1, _⟩ =>
    show win1_4.index ⟨8 * ((i 0).val / 1024) + 7, hlt⟩ (1 : Fin 2) * 64 ≤ (i 1).val ∧ (i 1).val < win1_4.index ⟨8 * ((i 0).val / 1024) + 7, hlt⟩ (1 : Fin 2) * 64 + 64
    omega

theorem final1_4 (c : Dev nD) : (dat1 V c).arrAt 4 cfg1.N
    = Cert.Spec.affineArr (Cert.Spec.leakyAgg (V c main_arg1) (V c main_v1)) (V c main_arg6) (V c main_v2) :=
  (dat1 V c).arrAt_eq_of_cover 4 (G1 V c) (fun t hf => flushed1_4_eq V c t hf) cover1_4

end Cert.KernelIdeal.Hand

end
-- ==== Proof.KI.Val2.lean ====
import proofs.«404698_j11304353923438_3_alg».proof.Proof.KI.Reg2
import proofs.«404698_j11304353923438_3_alg».proof.Proof.Spec
import proofs.«404698_j11304353923438_3_alg».proof.Proof.LibBlockSum
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand

open Cert.KernelIdeal.Gen Idealize.ShloMosaic Idealize.ShloMosaic.ValueIdx
open Idealize.ShloMosaic.TcCoe Idealize.SL.Sem
open Idealize.ShloMosaic.Pipeline (Dat)

abbrev dot2 : DotDims S1024x2048 S2048x64 S1024x64 := dot_S1024x2048_S2048x64_S1024x64_1_0_0_1_n_n

theorem lhs2_0 (j : S1024x64.Idx) (k : dot2.contr.Idx) : (dot2.lhsIdx j k (0 : Fin 2)).val = (j 0).val := by
  unfold DotDims.lhsIdx
  rw [dif_neg (show ¬(0 : Fin S1024x2048.rank) ∈ dot2.lhsBatch by decide), dif_pos (show (0 : Fin S1024x2048.rank) ∈ dot2.lhsNonContracting by decide)]
  rfl
theorem lhs2_1 (j : S1024x64.Idx) (k : dot2.contr.Idx) : (dot2.lhsIdx j k (1 : Fin 2)).val = (k ⟨0, by decide⟩).val :=
  dot2.lhsIdx_val_of_single rfl j k
theorem rhs2_0 (j : S1024x64.Idx) (k : dot2.contr.Idx) : (dot2.rhsIdx j k (0 : Fin 2)).val = (k ⟨0, by decide⟩).val :=
  dot2.rhsIdx_val_of_single rfl j k
theorem rhs2_1 (j : S1024x64.Idx) (k : dot2.contr.Idx) : (dot2.rhsIdx j k (1 : Fin 2)).val = (j 1).val := by
  unfold DotDims.rhsIdx
  rw [dif_neg (show ¬(1 : Fin S2048x64.rank) ∈ dot2.rhsBatch by decide), dif_pos (show (1 : Fin S2048x64.rank) ∈ dot2.rhsNonContracting by decide)]
  rfl

theorem matmul2_apply (a : FVec Ideal S1024x2048 .bf16) (b : FVec Ideal S2048x64 .bf16) (p : Fin 1024) (q : Fin 64) :
    matmul dot2 none a b (constant (F := Ideal) S1024x64 .f32 0x00000000#32) (ix2 p q) = ∑ l : Fin 2048, a (ix2 p l) * b (ix2 l q) := by
  refine (Ideal.matmul_constant_zero_apply dot2 none a b (ix2 p q)).trans ?_
  rw [← Equiv.sum_comp (contrEquiv1 dot2 2048 rfl rfl).symm]
  refine Finset.sum_congr rfl fun l _ => ?_
  have hk := contrEquiv1_symm_val dot2 2048 rfl rfl l
  congr 2
  · funext c; apply Fin.ext
    match c with
    | ⟨0, _⟩ => exact lhs2_0 _ _
    | ⟨1, _⟩ => exact (lhs2_1 _ _).trans hk
  · funext c; apply Fin.ext
    match c with
    | ⟨0, _⟩ => exact (rhs2_0 _ _).trans hk
    | ⟨1, _⟩ => exact rhs2_1 _ _

theorem pay2_1_apply (p : Fin 1024) (q : Fin 64) : (k2_pay1 (F := Ideal)) (ix2 p q) = 0 := by
  unfold k2_pay1
  rw [shapeCast_self]
  exact Ideal.ofBits_zero_f32

theorem pay2_2_apply (x0 : Vec Ideal S1024x2048 .f32) (x1 : Vec Ideal S2048x64 .bf16) (acc : Vec Ideal S1024x64 .f32) (p : Fin 1024) (q : Fin 64) :
    k2_pay2 x0 x1 acc (ix2 p q) = acc (ix2 p q) + ∑ l : Fin 2048, x0 (ix2 p l) * x1 (ix2 l q) := by
  unfold k2_pay2
  rw [shapeCast_self, shapeCast_self]
  refine (addf_apply _ _ _).trans ?_
  exact congrArg (acc (ix2 p q) + ·) (matmul2_apply _ _ p q)

theorem pay2_4_apply (acc : Vec Ideal S1024x64 .f32) (p : Fin 1024) (q : Fin 64) :
    k2_pay4 acc (ix2 p q) = Ideal.tanh (acc (ix2 p q)) := by
  unfold k2_pay4 k2_pay3
  rfl

theorem pay2_5_apply (acc : Vec Ideal S1024x64 .f32) (w : Vec Ideal S1x64 .f32) (b : Vec Ideal S1x1 .f32) (p : Fin 1024) :
    k2_pay5 acc w b (ix1 p) = (∑ d : Fin 64, Ideal.tanh (acc (ix2 p d)) * w (ix2 (0 : Fin 1) d)) + b (ix2 (0 : Fin 1) (0 : Fin 1)) := by
  unfold k2_pay5 k2_pay3
  refine (addf_apply _ _ _).trans ?_
  congr 1
  · refine (Ideal.multiReduction_add_single _ 0x00000000#32 reduces_S1024x64_S1024 _ _ (ix1 p)).trans ?_
    refine Finset.sum_congr rfl fun d _ => ?_
    have hidx : reduces_S1024x64_S1024.lift (ix1 p) d = ix2 p d := by
      funext c; apply Fin.ext
      match c with
      | ⟨0, _⟩ => rfl
      | ⟨1, _⟩ => rfl
    rw [hidx]
    refine (mulf_apply _ _ _).trans ?_
    refine congrArg (Ideal.tanh (acc (ix2 p d)) * ·) ?_
    refine broadcastTo_apply w broadcasts_S1x64_S1024x64 (ix2 p d) (ix2 (0 : Fin 1) d) ?_
    intro a
    match a with
    | ⟨0, _⟩ => rfl
    | ⟨1, _⟩ => rfl
  · show b _ = b _
    congr 1
    funext c
    match c with
    | ⟨0, _⟩ => rfl
    | ⟨1, _⟩ => rfl

variable (V : (c : Dev nD) → (b : Ref sig .tc) → Buf (Elt Ideal) ((c : Thread nD τ).loc b))

abbrev earr2 (c : Dev nD) : Cert.Spec.A2 16384 16384 := V c main_arg1
abbrev parr2 (c : Dev nD) : Cert.Spec.A2 16384 64 := V c main_v3
abbrev warr2 (c : Dev nD) : Cert.Spec.A2 1 64 := V c main_arg8
abbrev barr2 (c : Dev nD) : Cert.Spec.A2 1 1 := V c main_v4
abbrev eblk2 (c : Dev nD) (t : Fin cfg2.N) : Vec Ideal S1024x2048 .f32 := iblk2 V c 0 t
abbrev pblk2 (c : Dev nD) (t : Fin cfg2.N) : Vec Ideal S2048x64 .bf16 := iblk2 V c 1 t
abbrev wblk2 (c : Dev nD) (t : Fin cfg2.N) : Vec Ideal S1x64 .f32 := iblk2 V c 2 t
abbrev bblk2 (c : Dev nD) (t : Fin cfg2.N) : Vec Ideal S1x1 .f32 := iblk2 V c 3 t

theorem idx_facts2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val / 8 ∧ win2_4.index t (1 : Fin 2) = 0
    ∧ win2_5.index t (0 : Fin 1) = t.val / 8 :=
  (by decide +kernel : ∀ t : Fin grid2.N, _)

def row2 (t : Fin cfg2.N) (p : Fin 1024) : Fin 16384 :=
  ⟨1024 * (t.val / 8) + p.val, by have hN : t.val < 128 := lt_of_lt_of_eq t.isLt N_2; have := p.isLt; omega⟩
def node2 (t : Fin cfg2.N) (l : Fin 2048) : Fin 16384 := ⟨2048 * (t.val % 8) + l.val, by have := l.isLt; omega⟩

theorem eblk2_apply (c : Dev nD) (t : Fin cfg2.N) (p : Fin 1024) (l : Fin 2048) :
    eblk2 V c t (ix2 p l) = earr2 V c (ix2 (row2 t p) (node2 t l)) := by
  obtain ⟨e0, e1, -⟩ := idx_facts2 t
  show V c main_arg1 (((cfg2.win 0).blk t).view.emb (ix2 p l)) = V c main_arg1 _
  refine congrArg (V c main_arg1) (funext fun a => Fin.ext ?_)
  match a with
  | ⟨0, _⟩ => show win2_0.index t (0 : Fin 2) * 1024 + 1 * p.val = 1024 * (t.val / 8) + p.val; omega
  | ⟨1, _⟩ => show win2_0.index t (1 : Fin 2) * 2048 + 1 * l.val = 2048 * (t.val % 8) + l.val; omega

theorem pblk2_apply (c : Dev nD) (t : Fin cfg2.N) (l : Fin 2048) (q : Fin 64) :
    pblk2 V c t (ix2 l q) = parr2 V c (ix2 (node2 t l) q) := by
  obtain ⟨-, -, e0, e1, -⟩ := idx_facts2 t
  show V c main_v3 (((cfg2.win 1).blk t).view.emb (ix2 l q)) = V c main_v3 _
  refine congrArg (V c main_v3) (funext fun a => Fin.ext ?_)
  match a with
  | ⟨0, _⟩ => show win2_1.index t (0 : Fin 2) * 2048 + 1 * l.val = 2048 * (t.val % 8) + l.val; omega
  | ⟨1, _⟩ => show win2_1.index t (1 : Fin 2) * 64 + 1 * q.val = q.val; omega

theorem wblk2_apply (c : Dev nD) (t : Fin cfg2.N) (d : Fin 64) :
    wblk2 V c t (ix2 (0 : Fin 1) d) = warr2 V c (ix2 (0 : Fin 1) d) := by
  obtain ⟨-, -, -, -, e0, e1, -⟩ := idx_facts2 t
  show V c main_arg8 (((cfg2.win 2).blk t).view.emb (ix2 (0 : Fin 1) d)) = V c main_arg8 _
  refine congrArg (V c main_arg8) (funext fun a => Fin.ext ?_)
  match a with
  | ⟨0, _⟩ => show win2_2.index t (0 : Fin 2) * 1 + 1 * 0 = 0; omega
  | ⟨1, _⟩ => show win2_2.index t (1 : Fin 2) * 64 + 1 * d.val = d.val; omega

theorem bblk2_apply (c : Dev nD) (t : Fin cfg2.N) :
    bblk2 V c t (ix2 (0 : Fin 1) (0 : Fin 1)) = barr2 V c (ix2 (0 : Fin 1) (0 : Fin 1)) := by
  obtain ⟨-, -, -, -, -, -, e0, e1, -⟩ := idx_facts2 t
  show V c main_v4 (((cfg2.win 3).blk t).view.emb (ix2 (0 : Fin 1) (0 : Fin 1))) = V c main_v4 _
  refine congrArg (V c main_v4) (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

abbrev term2 (c : Dev nD) (n : Fin 16384) (q : Fin 64) : Fin 16384 → EReal := fun j => earr2 V c (ix2 n j) * parr2 V c (ix2 j q)

theorem step2 (c : Dev nD) (t : Fin cfg2.N) (acc : Vec Ideal S1024x64 .f32) (p : Fin 1024) (q : Fin 64) :
    k2_pay2 (eblk2 V c t) (pblk2 V c t) acc (ix2 p q) = acc (ix2 p q) + ∑ l : Fin 2048, term2 V c (row2 t p) q (node2 t l) := by
  refine (pay2_2_apply (eblk2 V c t) (pblk2 V c t) acc p q).trans ?_
  refine congrArg (acc (ix2 p q) + ·) (Finset.sum_congr rfl fun l _ => ?_)
  rw [eblk2_apply, pblk2_apply]

theorem acc2_A (c : Dev nD) (t : Fin cfg2.N) (h0 : t.val % 8 = 0) (p : Fin 1024) (q : Fin 64) :
    acc2 V c t.val t.isLt (ix2 p q) = Cert.BlockSum.part (term2 V c (row2 t p) q) (t.val % 8 + 1) := by
  refine ((congrFun (acc2_eq V c t) _).trans (step2 V c t _ p q)).trans ?_
  rw [if_pos h0, pay2_1_apply, Cert.BlockSum.part_succ (term2 V c (row2 t p) q) (t.val % 8) (Nat.mod_lt _ (by decide)),
    show Cert.BlockSum.part (term2 V c (row2 t p) q) (t.val % 8) = 0 from by rw [h0]; exact Cert.BlockSum.part_zero _]
  rfl

-- After point n = 8·m + k the accumulator's entry (p, q) is the sum of the terms of row 1024·m + p over the first k + 1 blocks of nodes.
theorem acc2_part (c : Dev nD) : ∀ (n : ℕ) (hn : n < cfg2.N) (p : Fin 1024) (q : Fin 64),
    acc2 V c n hn (ix2 p q) = Cert.BlockSum.part (term2 V c (row2 ⟨n, hn⟩ p) q) (n % 8 + 1)
  | 0, hn, p, q => acc2_A V c ⟨0, hn⟩ rfl p q
  | n + 1, hn, p, q => by
    have hN : n + 1 < 128 := lt_of_lt_of_eq hn N_2
    by_cases h0 : (n + 1) % 8 = 0
    · exact acc2_A V c ⟨n + 1, hn⟩ h0 p q
    · refine (step2 V c ⟨n + 1, hn⟩ (if (n + 1) % 8 = 0 then k2_pay1 (F := Ideal) else acc2 V c n (Nat.lt_of_succ_lt hn)) p q).trans ?_
      rw [if_neg h0, acc2_part c n (Nat.lt_of_succ_lt hn) p q]
      have hrow : row2 ⟨n, Nat.lt_of_succ_lt hn⟩ p = row2 ⟨n + 1, hn⟩ p :=
        Fin.ext (by show 1024 * (n / 8) + p.val = 1024 * ((n + 1) / 8) + p.val; omega)
      rw [hrow, show (n + 1) % 8 + 1 = (n % 8 + 1) + 1 from by omega,
        Cert.BlockSum.part_succ (term2 V c (row2 ⟨n + 1, hn⟩ p) q) (n % 8 + 1) (by omega)]
      refine congrArg (_ + ·) (Finset.sum_congr rfl fun l _ => ?_)
      exact congrArg (term2 V c (row2 ⟨n + 1, hn⟩ p) q) (Fin.ext (by show 2048 * ((n + 1) % 8) + l.val = 2048 * (n % 8 + 1) + l.val; omega))

theorem acc2_last (c : Dev nD) (t : Fin cfg2.N) (h7 : t.val % 8 = 7) (p : Fin 1024) (q : Fin 64) :
    acc2 V c t.val t.isLt (ix2 p q) = Cert.Spec.agg (earr2 V c) (parr2 V c) (row2 t p) q := by
  refine (acc2_part V c t.val t.isLt p q).trans ?_
  rw [h7]
  exact Cert.BlockSum.part_eight _

theorem cut2_4 (t : Fin cfg2.N) (X : Vec Ideal S1024x64 .bf16) (y : ((cfg2.win 4).xblock (grid2.coords t)).Idx) :
    (cfg2.win 4).cut (grid2.coords t) X y = X ((cfg2.win 4).xinj (grid2.coords t) y) := rfl
theorem cut2_5 (t : Fin cfg2.N) (X : Vec Ideal S1024 .f32) (y : ((cfg2.win 5).xblock (grid2.coords t)).Idx) :
    (cfg2.win 5).cut (grid2.coords t) X y = X ((cfg2.win 5).xinj (grid2.coords t) y) := rfl
theorem read2_4 (t : Fin cfg2.N) (G : Cert.Spec.A2 16384 64) (y : ((cfg2.win 4).xblock (grid2.coords t)).Idx) :
    ((cfg2.win 4).blk t).view.read (Elt Ideal) G y = G (((cfg2.win 4).blk t).view.emb y) := rfl
theorem read2_5 (t : Fin cfg2.N) (G : Cert.Spec.A1 16384) (y : ((cfg2.win 5).xblock (grid2.coords t)).Idx) :
    ((cfg2.win 5).blk t).view.read (Elt Ideal) G y = G (((cfg2.win 5).blk t).view.emb y) := rfl

theorem flushed2_4_eq (c : Dev nD) (t : Fin cfg2.N) (hf : (cfg2.win 4).flush t = true) :
    (dat2 V c).flushed 4 t = ((cfg2.win 4).blk t).view.read (Elt Ideal) (Cert.Spec.tanhAgg (earr2 V c) (parr2 V c)) := by
  have h7 : t.val % 8 = 7 := (flush2_4 t).mp hf
  obtain ⟨-, -, -, -, -, -, -, -, e0, e1, -⟩ := idx_facts2 t
  have key : ∀ (p : Fin 1024) (q : Fin 64), k2_pay4 (acc2 V c t.val t.isLt) (ix2 p q)
      = Cert.Spec.tanhAgg (earr2 V c) (parr2 V c) (ix2 (row2 t p) q) := fun p q => by
    rw [pay2_4_apply, acc2_last V c t h7]; rfl
  show (cfg2.win 4).cut (grid2.coords t) (k2_pay4 (acc2 V c t.val t.isLt)) = _
  generalize k2_pay4 (acc2 V c t.val t.isLt) = X at key ⊢
  funext y
  have hy0 : (y 0).val < 1024 := (y 0).isLt
  have hy1 : (y 1).val < 64 := (y 1).isLt
  have hy : (cfg2.win 4).xinj (grid2.coords t) y = ix2 (⟨(y 0).val, hy0⟩ : Fin 1024) (⟨(y 1).val, hy1⟩ : Fin 64) := by
    funext a; apply Fin.ext
    match a with
    | ⟨0, _⟩ => rfl
    | ⟨1, _⟩ => rfl
  refine (cut2_4 t X y).trans (Eq.trans ?_ (read2_4 t (Cert.Spec.tanhAgg (earr2 V c) (parr2 V c)) y).symm)
  rw [hy, key]
  refine congrArg (Cert.Spec.tanhAgg (earr2 V c) (parr2 V c)) (funext fun a => Fin.ext ?_)
  match a with
  | ⟨0, _⟩ => show 1024 * (t.val / 8) + (y 0).val = win2_4.index t (0 : Fin 2) * 1024 + 1 * (y 0).val; omega
  | ⟨1, _⟩ => show (y 1).val = win2_4.index t (1 : Fin 2) * 64 + 1 * (y 1).val; omega

theorem flushed2_5_eq (c : Dev nD) (t : Fin cfg2.N) (hf : (cfg2.win 5).flush t = true) :
    (dat2 V c).flushed 5 t = ((cfg2.win 5).blk t).view.read (Elt Ideal)
      (Cert.Spec.logitArr (Cert.Spec.tanhAgg (earr2 V c) (parr2 V c)) (warr2 V c) (barr2 V c (ix2 (0 : Fin 1) (0 : Fin 1)))) := by
  have h7 : t.val % 8 = 7 := (flush2_5 t).mp hf
  obtain ⟨-, -, -, -, -, -, -, -, -, -, e0⟩ := idx_facts2 t
  have key : ∀ (p : Fin 1024), k2_pay5 (acc2 V c t.val t.isLt) (wblk2 V c t) (bblk2 V c t) (ix1 p)
      = Cert.Spec.logitArr (Cert.Spec.tanhAgg (earr2 V c) (parr2 V c)) (warr2 V c) (barr2 V c (ix2 (0 : Fin 1) (0 : Fin 1))) (ix1 (row2 t p)) := fun p => by
    rw [pay2_5_apply, bblk2_apply]
    refine congrArg (· + barr2 V c (ix2 (0 : Fin 1) (0 : Fin 1))) (Finset.sum_congr rfl fun d _ => ?_)
    rw [acc2_last V c t h7, wblk2_apply]; rfl
  show (cfg2.win 5).cut (grid2.coords t) (k2_pay5 (acc2 V c t.val t.isLt) (wblk2 V c t) (bblk2 V c t)) = _
  generalize k2_pay5 (acc2 V c t.val t.isLt) (wblk2 V c t) (bblk2 V c t) = X at key ⊢
  funext y
  have hy0 : (y 0).val < 1024 := (y 0).isLt
  have hy : (cfg2.win 5).xinj (grid2.coords t) y = ix1 (⟨(y 0).val, hy0⟩ : Fin 1024) := by
    funext a; apply Fin.ext
    match a with
    | ⟨0, _⟩ => rfl
  refine (cut2_5 t X y).trans (Eq.trans ?_ (read2_5 t (Cert.Spec.logitArr (Cert.Spec.tanhAgg (earr2 V c) (parr2 V c)) (warr2 V c) (barr2 V c (ix2 (0 : Fin 1) (0 : Fin 1)))) y).symm)
  rw [hy, key]
  refine congrArg (Cert.Spec.logitArr (Cert.Spec.tanhAgg (earr2 V c) (parr2 V c)) (warr2 V c) (barr2 V c (ix2 (0 : Fin 1) (0 : Fin 1)))) (funext fun a => Fin.ext ?_)
  match a with
  | ⟨0, _⟩ => show 1024 * (t.val / 8) + (y 0).val = win2_5.index t (0 : Fin 1) * 1024 + 1 * (y 0).val; omega

theorem mem_blk2_4 (t : Fin cfg2.N) (i : S16384x64.Idx) :
    i ∈ ((cfg2.win 4).blk t).view.set ↔ ∀ a : Fin 2, win2_4.index t a * S1024x64.size a ≤ (i a).val ∧ (i a).val < win2_4.index t a * S1024x64.size a + S1024x64.size a := by
  show i ∈ ((View.whole main_v5_0).slice (win2_4.rect t)).set ↔ _
  rw [View.set_slice_whole, Rect.mem_set_unit]
  exact Iff.rfl

theorem mem_blk2_5 (t : Fin cfg2.N) (i : S16384.Idx) :
    i ∈ ((cfg2.win 5).blk t).view.set ↔ ∀ a : Fin 1, win2_5.index t a * S1024.size a ≤ (i a).val ∧ (i a).val < win2_5.index t a * S1024.size a + S1024.size a := by
  show i ∈ ((View.whole main_v5_1).slice (win2_5.rect t)).set ↔ _
  rw [View.set_slice_whole, Rect.mem_set_unit]
  exact Iff.rfl

theorem covered2_4 (i : S16384x64.Idx) : ∃ t : Fin cfg2.N, (cfg2.win 4).flush t = true ∧ i ∈ ((cfg2.win 4).blk t).view.set := by
  have hi0 : (i 0).val < 16384 := (i 0).isLt
  have hi1 : (i 1).val < 64 := (i 1).isLt
  have hN : cfg2.N = 128 := N_2
  obtain ⟨t, ht⟩ : ∃ t : Fin cfg2.N, t.val = 8 * ((i 0).val / 1024) + 7 := ⟨⟨8 * ((i 0).val / 1024) + 7, by rw [hN]; omega⟩, rfl⟩
  obtain ⟨-, -, -, -, -, -, -, -, e0, e1, -⟩ := idx_facts2 t
  refine ⟨t, (flush2_4 t).mpr (by omega), ?_⟩
  rw [mem_blk2_4]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 64 ≤ (i 1).val ∧ (i 1).val < win2_4.index t (1 : Fin 2) * 64 + 64; omega

theorem covered2_5 (i : S16384.Idx) : ∃ t : Fin cfg2.N, (cfg2.win 5).flush t = true ∧ i ∈ ((cfg2.win 5).blk t).view.set := by
  have hi0 : (i 0).val < 16384 := (i 0).isLt
  have hN : cfg2.N = 128 := N_2
  obtain ⟨t, ht⟩ : ∃ t : Fin cfg2.N, t.val = 8 * ((i 0).val / 1024) + 7 := ⟨⟨8 * ((i 0).val / 1024) + 7, by rw [hN]; omega⟩, rfl⟩
  obtain ⟨-, -, -, -, -, -, -, -, -, -, e0⟩ := idx_facts2 t
  refine ⟨t, (flush2_5 t).mpr (by omega), ?_⟩
  rw [mem_blk2_5]
  intro a
  match a with
  | ⟨0, _⟩ => show win2_5.index t (0 : Fin 1) * 1024 ≤ (i 0).val ∧ (i 0).val < win2_5.index t (0 : Fin 1) * 1024 + 1024; omega

theorem final2_4 (c : Dev nD) : (dat2 V c).arrAt 4 cfg2.N = Cert.Spec.tanhAgg (V c main_arg1) (V c main_v3) :=
  (dat2 V c).arrAt_eq_of_cover 4 (Cert.Spec.tanhAgg (earr2 V c) (parr2 V c)) (fun t hf => flushed2_4_eq V c t hf) covered2_4

theorem final2_5 (c : Dev nD) : (dat2 V c).arrAt 5 cfg2.N = Cert.Spec.logitArr (Cert.Spec.tanhAgg (V c main_arg1) (V c main_v3)) (V c main_arg8) (V c main_v4 (ix2 (0 : Fin 1) (0 : Fin 1))) :=
  (dat2 V c).arrAt_eq_of_cover 5 (Cert.Spec.logitArr (Cert.Spec.tanhAgg (earr2 V c) (parr2 V c)) (warr2 V c) (barr2 V c (ix2 (0 : Fin 1) (0 : Fin 1)))) (fun t hf => flushed2_5_eq V c t hf) covered2_5

end Cert.KernelIdeal.Hand

end
-- ==== Proof.KI.Val3.lean ====
import proofs.«404698_j11304353923438_3_alg».proof.Proof.KI.Reg3
import proofs.«404698_j11304353923438_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal.Gen Idealize.ShloMosaic Idealize.ShloMosaic.ValueIdx
open Idealize.ShloMosaic.TcCoe Idealize.SL.Sem
open Idealize.ShloMosaic.Pipeline (Dat)

theorem shapeCast_a_a1_apply3 {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply3 {α : Type} {a b : ℕ} (v : (⟨2, ![a, 1]⟩ : Shape).Idx → α) (h : (⟨2, ![a, 1]⟩ : Shape).Broadcasts ⟨2, ![a, b]⟩)
    (p : Fin a) (j : Fin b) : broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

def zblk3 (x0 x1 : Vec Ideal S32x16384 .f32) (x2 : Vec Ideal S1x16384 .f32) (p : Fin 32) (j : Fin 16384) : EReal :=
  x0 (ix2 p j) * x2 (ix2 (0 : Fin 1) j) + x1 (ix2 p j)

def rowsoft3 (zr : Fin 16384 → EReal) (j : Fin 16384) : EReal :=
  Ideal.div (Ideal.exp (zr j - Cert.Spec.rowmax zr)) (∑ j' : Fin 16384, Ideal.exp (zr j' - Cert.Spec.rowmax zr))

theorem score_apply3 (x0 x1 : FVec Ideal S32x16384 .f32) (x2 : FVec Ideal S1x16384 .f32) (p : Fin 32) (j : Fin 16384) :
    addf (mulf x0 (broadcastTo S32x16384 (shapeCast S1x16384 x2 shapeCasts_S1x16384_S1x16384) broadcasts_S1x16384_S32x16384)) x1 (ix2 p j)
      = zblk3 x0 x1 x2 p j := by
  rw [addf_apply, mulf_apply, shapeCast_self]
  unfold zblk3
  exact congrArg (fun w => x0 (ix2 p j) * w + x1 (ix2 p j)) (broadcastTo_1b_ab_apply x2 broadcasts_S1x16384_S32x16384 p j)

theorem ofBits_neg_inf3 : Ideal.ofBits .f32 0xFF800000#32 = ⊥ := by simp [Ideal.ofBits, Ideal.ieee]

theorem rowmax_apply3 (v : FVec Ideal S32x16384 .f32) (hφ : FKind.Formats .f32)
    (hacc : (0xFF800000#32 : BitVec 32) = FKind.maximumf.neutral .f32 hφ) (p : Fin 32) (j : Fin 16384) :
    broadcastTo S32x16384 (shapeCast S32x1 (multiReduction .maximumf [1] S32 v 0xFF800000#32 reduces_S32x16384_S32 hφ hacc)
        shapeCasts_S32_S32x1) broadcasts_S32x1_S32x16384 (ix2 p j)
      = Cert.Spec.rowmax (fun j' => v (ix2 p j')) := by
  refine (broadcastTo_a1_ab_apply3 _ broadcasts_S32x1_S32x16384 p j).trans ?_
  refine (shapeCast_a_a1_apply3 _ shapeCasts_S32_S32x1 p (0 : Fin 1)).trans ?_
  refine (Ideal.multiReduction_maximumf_single v 0xFF800000#32 reduces_S32x16384_S32 hφ hacc (ix1 p)).trans ?_
  unfold Cert.Spec.rowmax
  show (Finset.univ : Finset (Fin 16384)).fold max (Ideal.ofBits .f32 0xFF800000#32) (v ∘ reduces_S32x16384_S32.lift (ix1 p)) = _
  rw [ofBits_neg_inf3]
  refine congrArg (fun f : Fin 16384 → EReal => (Finset.univ : Finset (Fin 16384)).fold max ⊥ f) (funext fun k => ?_)
  show v (reduces_S32x16384_S32.lift (ix1 p) k) = v (ix2 p k)
  refine congrArg v (funext fun a => Fin.ext ?_)
  match a with
  | ⟨0, _⟩ => rfl
  | ⟨1, _⟩ => rfl

theorem rowsum_apply3 (v : FVec Ideal S32x16384 .f32) (hφ : FKind.Formats .f32)
    (hacc : (0x00000000#32 : BitVec 32) = FKind.add.neutral .f32 hφ) (p : Fin 32) (j : Fin 16384) :
    broadcastTo S32x16384 (shapeCast S32x1 (multiReduction .add [1] S32 v 0x00000000#32 reduces_S32x16384_S32 hφ hacc)
        shapeCasts_S32_S32x1) broadcasts_S32x1_S32x16384 (ix2 p j)
      = ∑ j' : Fin 16384, v (ix2 p j') := by
  refine (broadcastTo_a1_ab_apply3 _ broadcasts_S32x1_S32x16384 p j).trans ?_
  refine (shapeCast_a_a1_apply3 _ shapeCasts_S32_S32x1 p (0 : Fin 1)).trans ?_
  refine (Ideal.multiReduction_add_single v 0x00000000#32 reduces_S32x16384_S32 hφ hacc (ix1 p)).trans ?_
  show ∑ k : Fin 16384, v (reduces_S32x16384_S32.lift (ix1 p) k) = _
  refine Finset.sum_congr rfl fun k _ => ?_
  refine congrArg v (funext fun a => Fin.ext ?_)
  match a with
  | ⟨0, _⟩ => rfl
  | ⟨1, _⟩ => rfl

abbrev expz3 (z : FVec Ideal S32x16384 .f32) (hφ : FKind.Formats .f32)
    (hmax : (0xFF800000#32 : BitVec 32) = FKind.maximumf.neutral .f32 hφ) : FVec Ideal S32x16384 .f32 :=
  exp (subf z (broadcastTo S32x16384 (shapeCast S32x1 (multiReduction .maximumf [1] S32 z 0xFF800000#32 reduces_S32x16384_S32 hφ hmax)
    shapeCasts_S32_S32x1) broadcasts_S32x1_S32x16384))

theorem expz_apply3 (z : FVec Ideal S32x16384 .f32) (hφ : FKind.Formats .f32)
    (hmax : (0xFF800000#32 : BitVec 32) = FKind.maximumf.neutral .f32 hφ) (p : Fin 32) (j : Fin 16384) :
    expz3 z hφ hmax (ix2 p j) = Ideal.exp (z (ix2 p j) - Cert.Spec.rowmax (fun j' => z (ix2 p j'))) :=
  congrArg (fun m : EReal => Ideal.exp (z (ix2 p j) - m)) (rowmax_apply3 z hφ hmax p j)

theorem softmax_apply3 (z : FVec Ideal S32x16384 .f32) (hφ : FKind.Formats .f32)
    (hmax : (0xFF800000#32 : BitVec 32) = FKind.maximumf.neutral .f32 hφ)
    (hadd : (0x00000000#32 : BitVec 32) = FKind.add.neutral .f32 hφ) (p : Fin 32) (j : Fin 16384) :
    divf (expz3 z hφ hmax)
        (broadcastTo S32x16384 (shapeCast S32x1 (multiReduction .add [1] S32 (expz3 z hφ hmax)
            0x00000000#32 reduces_S32x16384_S32 hφ hadd) shapeCasts_S32_S32x1) broadcasts_S32x1_S32x16384)
        (ix2 p j)
      = rowsoft3 (fun j' => z (ix2 p j')) j := by
  have hs : broadcastTo S32x16384 (shapeCast S32x1 (multiReduction .add [1] S32 (expz3 z hφ hmax)
            0x00000000#32 reduces_S32x16384_S32 hφ hadd) shapeCasts_S32_S32x1) broadcasts_S32x1_S32x16384 (ix2 p j)
      = ∑ j' : Fin 16384, Ideal.exp (z (ix2 p j') - Cert.Spec.rowmax (fun j'' => z (ix2 p j''))) :=
    (rowsum_apply3 (expz3 z hφ hmax) hφ hadd p j).trans (Fintype.sum_congr _ _ fun j' => expz_apply3 z hφ hmax p j')
  unfold rowsoft3
  refine (divf_apply _ _ (ix2 p j)).trans ?_
  exact congrArg₂ Ideal.div (expz_apply3 z hφ hmax p j) hs

theorem pay1_apply3 (x0 x1 : Vec Ideal S32x16384 .f32) (x2 : Vec Ideal S1x16384 .f32) (p : Fin 32) (j : Fin 16384) :
    k3_pay1 (F := Ideal) x0 x1 x2 (ix2 p j) = rowsoft3 (zblk3 x0 x1 x2 p) j := by
  unfold k3_pay1
  refine (softmax_apply3 _ _ _ _ p j).trans ?_
  exact congrArg (fun zr => rowsoft3 zr j) (funext fun j' => score_apply3 x0 x1 x2 p j')

abbrev dot3 : DotDims S32x16384 S16384x64 S32x64 := dot_S32x16384_S16384x64_S32x64_1_0_0_1_n_n

theorem lhs_D3_0 (j : S32x64.Idx) (k : dot3.contr.Idx) :
    (dot3.lhsIdx j k 0).val = (j 0).val := by
  unfold DotDims.lhsIdx
  rw [dif_neg (show ¬(0 : Fin S32x16384.rank) ∈ dot3.lhsBatch by decide),
    dif_pos (show (0 : Fin S32x16384.rank) ∈ dot3.lhsNonContracting by decide)]
  rfl
theorem lhs_D3_1 (j : S32x64.Idx) (k : dot3.contr.Idx) :
    (dot3.lhsIdx j k 1).val = (k ⟨0, by decide⟩).val :=
  dot3.lhsIdx_val_of_single rfl j k
theorem rhs_D3_0 (j : S32x64.Idx) (k : dot3.contr.Idx) :
    (dot3.rhsIdx j k 0).val = (k ⟨0, by decide⟩).val :=
  dot3.rhsIdx_val_of_single rfl j k
theorem rhs_D3_1 (j : S32x64.Idx) (k : dot3.contr.Idx) :
    (dot3.rhsIdx j k 1).val = (j 1).val := by
  unfold DotDims.rhsIdx
  rw [dif_neg (show ¬(1 : Fin S16384x64.rank) ∈ dot3.rhsBatch by decide),
    dif_pos (show (1 : Fin S16384x64.rank) ∈ dot3.rhsNonContracting by decide)]
  rfl

theorem matmul_apply3 (lhs : FVec Ideal S32x16384 .bf16) (rhs : FVec Ideal S16384x64 .bf16) (p : Fin 32) (d : Fin 64) :
    matmul dot3 none lhs rhs (constant (F := Ideal) S32x64 .f32 0x00000000#32) (ix2 p d)
      = ∑ k : Fin 16384, lhs (ix2 p k) * rhs (ix2 k d) := by
  refine (Ideal.matmul_constant_zero_apply dot3 none lhs rhs (ix2 p d)).trans ?_
  rw [← Equiv.sum_comp (contrEquiv1 dot3 16384 rfl rfl).symm]
  refine Finset.sum_congr rfl fun k _ => ?_
  have hk := contrEquiv1_symm_val dot3 16384 rfl rfl k
  congr 2
  · funext a; apply Fin.ext
    match a with
    | ⟨0, _⟩ => exact lhs_D3_0 _ _
    | ⟨1, _⟩ => exact (lhs_D3_1 _ _).trans hk
  · funext a; apply Fin.ext
    match a with
    | ⟨0, _⟩ => exact (rhs_D3_0 _ _).trans hk
    | ⟨1, _⟩ => exact rhs_D3_1 _ _

theorem pay2_apply3 (x0 x1 : Vec Ideal S32x16384 .f32) (x2 : Vec Ideal S1x16384 .f32) (x3 : Vec Ideal S16384x64 .bf16) (p : Fin 32) (d : Fin 64) :
    k3_pay2 (F := Ideal) x0 x1 x2 x3 (ix2 p d) = ∑ j : Fin 16384, rowsoft3 (zblk3 x0 x1 x2 p) j * x3 (ix2 j d) := by
  unfold k3_pay2
  refine (matmul_apply3 _ _ p d).trans ?_
  refine Finset.sum_congr rfl fun j _ => ?_
  rw [truncf_apply, shapeCast_self]
  exact congrArg (fun w : EReal => w * x3 (ix2 j d)) (pay1_apply3 x0 x1 x2 p j)

variable (V : (c : Dev nD) → (b : Ref sig .tc) → Buf (Elt Ideal) ((c : Thread nD τ).loc b))

theorem hz3 : (![0, 0] : Fin 2 → Nat) = fun _ => 0 := funext fun a => by fin_cases a <;> rfl

theorem lt16_3 (t : Fin cfg3.N) : t.val < 16 := lt_of_lt_of_eq t.isLt N_3

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

abbrev mat3 (c : Dev nD) : Cert.Spec.A2 512 16384 := V c main_arg2
abbrev mask3 (c : Dev nD) : Cert.Spec.A2 512 16384 := V c main_arg3
abbrev arow3 (c : Dev nD) : Cert.Spec.A2 1 16384 := V c main_v6
abbrev feat3 (c : Dev nD) : Cert.Spec.A2 16384 64 := V c main_v5_0

abbrev score3 (c : Dev nD) : Fin 512 → Fin 16384 → EReal := Cert.Spec.score (V c main_arg2) (V c main_arg3) (V c main_v6)

abbrev matblk3 (c : Dev nD) (t : Fin cfg3.N) : Vec Ideal S32x16384 .f32 := iblk3 V c 0 t
abbrev maskblk3 (c : Dev nD) (t : Fin cfg3.N) : Vec Ideal S32x16384 .f32 := iblk3 V c 1 t
abbrev arowblk3 (c : Dev nD) (t : Fin cfg3.N) : Vec Ideal S1x16384 .f32 := iblk3 V c 2 t
abbrev featblk3 (c : Dev nD) (t : Fin cfg3.N) : Vec Ideal S16384x64 .bf16 := iblk3 V c 3 t

theorem matblk_apply3 (c : Dev nD) (t : Fin cfg3.N) (p : Fin 32) (j : Fin 16384) (r : Fin 512) (hr : r.val = 32 * t.val + p.val) :
    matblk3 V c t (ix2 p j) = mat3 V c (ix2 r j) := by
  obtain ⟨e0, e1, -⟩ := idx_facts3 t
  show V c main_arg2 (((cfg3.win 0).blk t).view.emb (ix2 p j)) = V c main_arg2 (ix2 r j)
  refine congrArg (V c main_arg2) (funext fun a => Fin.ext ?_)
  match a with
  | ⟨0, _⟩ => show win3_0.index t (0 : Fin 2) * 32 + 1 * p.val = r.val; omega
  | ⟨1, _⟩ => show win3_0.index t (1 : Fin 2) * 16384 + 1 * j.val = j.val; omega

theorem maskblk_apply3 (c : Dev nD) (t : Fin cfg3.N) (p : Fin 32) (j : Fin 16384) (r : Fin 512) (hr : r.val = 32 * t.val + p.val) :
    maskblk3 V c t (ix2 p j) = mask3 V c (ix2 r j) := by
  obtain ⟨-, -, e0, e1, -⟩ := idx_facts3 t
  show V c main_arg3 (((cfg3.win 1).blk t).view.emb (ix2 p j)) = V c main_arg3 (ix2 r j)
  refine congrArg (V c main_arg3) (funext fun a => Fin.ext ?_)
  match a with
  | ⟨0, _⟩ => show win3_1.index t (0 : Fin 2) * 32 + 1 * p.val = r.val; omega
  | ⟨1, _⟩ => show win3_1.index t (1 : Fin 2) * 16384 + 1 * j.val = j.val; omega

theorem arowblk_apply3 (c : Dev nD) (t : Fin cfg3.N) (u : Fin 1) (j : Fin 16384) :
    arowblk3 V c t (ix2 u j) = arow3 V c (ix2 u j) := by
  obtain ⟨-, -, -, -, e0, e1, -⟩ := idx_facts3 t
  show V c main_v6 (((cfg3.win 2).blk t).view.emb (ix2 u j)) = V c main_v6 (ix2 u j)
  refine congrArg (V c main_v6) (funext fun a => Fin.ext ?_)
  match a with
  | ⟨0, _⟩ => show win3_2.index t (0 : Fin 2) * 1 + 1 * u.val = u.val; omega
  | ⟨1, _⟩ => show win3_2.index t (1 : Fin 2) * 16384 + 1 * j.val = j.val; omega

theorem featblk_apply3 (c : Dev nD) (t : Fin cfg3.N) (k : Fin 16384) (d : Fin 64) :
    featblk3 V c t (ix2 k d) = feat3 V c (ix2 k d) := by
  obtain ⟨-, -, -, -, -, -, e0, e1, -⟩ := idx_facts3 t
  show V c main_v5_0 (((cfg3.win 3).blk t).view.emb (ix2 k d)) = V c main_v5_0 (ix2 k d)
  refine congrArg (V c main_v5_0) (funext fun a => Fin.ext ?_)
  match a with
  | ⟨0, _⟩ => show win3_3.index t (0 : Fin 2) * 16384 + 1 * k.val = k.val; omega
  | ⟨1, _⟩ => show win3_3.index t (1 : Fin 2) * 64 + 1 * d.val = d.val; omega

theorem zblk_eq3 (c : Dev nD) (t : Fin cfg3.N) (p : Fin 32) (r : Fin 512) (hr : r.val = 32 * t.val + p.val) :
    zblk3 (matblk3 V c t) (maskblk3 V c t) (arowblk3 V c t) p = score3 V c r := by
  funext j
  unfold zblk3 score3 Cert.Spec.score
  rw [matblk_apply3 V c t p j r hr, maskblk_apply3 V c t p j r hr, arowblk_apply3 V c t (0 : Fin 1) j]

theorem emb3_4 (t : Fin cfg3.N) (p : Fin 32) (j : Fin 16384) (r : Fin 512) (hr : r.val = 32 * t.val + p.val) :
    ((cfg3.win 4).blk t).view.emb (ix2 p j) = (ix2 r j : S512x16384.Idx) := by
  obtain ⟨-, -, -, -, -, -, -, -, e0, e1, -⟩ := idx_facts3 t
  refine funext fun a => Fin.ext ?_
  match a with
  | ⟨0, _⟩ => show win3_4.index t (0 : Fin 2) * 32 + 1 * p.val = r.val; omega
  | ⟨1, _⟩ => show win3_4.index t (1 : Fin 2) * 16384 + 1 * j.val = j.val; omega

theorem emb3_5 (t : Fin cfg3.N) (p : Fin 32) (d : Fin 64) (r : Fin 512) (hr : r.val = 32 * t.val + p.val) :
    ((cfg3.win 5).blk t).view.emb (ix2 p d) = (ix2 r d : S512x64.Idx) := by
  obtain ⟨-, -, -, -, -, -, -, -, -, -, e0, e1⟩ := idx_facts3 t
  refine funext fun a => Fin.ext ?_
  match a with
  | ⟨0, _⟩ => show win3_5.index t (0 : Fin 2) * 32 + 1 * p.val = r.val; omega
  | ⟨1, _⟩ => show win3_5.index t (1 : Fin 2) * 64 + 1 * d.val = d.val; omega

theorem weightArr_apply3 (Z : Fin 512 → Fin 16384 → EReal) (r : Fin 512) (j : Fin 16384) :
    Cert.Spec.weightArr Z (ix2 r j) = rowsoft3 (Z r) j := rfl

theorem poolArr_apply3 (Z : Fin 512 → Fin 16384 → EReal) (h : Cert.Spec.A2 16384 64) (r : Fin 512) (d : Fin 64) :
    Cert.Spec.poolArr (Cert.Spec.weight Z) h (ix2 r d) = ∑ j : Fin 16384, rowsoft3 (Z r) j * h (ix2 j d) := rfl

theorem read3_4 (G : Cert.Spec.A2 512 16384) (t : Fin cfg3.N) (p : Fin 32) (j : Fin 16384) (r : Fin 512) (hr : r.val = 32 * t.val + p.val) :
    ((cfg3.win 4).blk t).view.read (Elt Ideal) G (ix2 p j) = G (ix2 r j) := by
  show G (((cfg3.win 4).blk t).view.emb (ix2 p j)) = G (ix2 r j)
  rw [emb3_4 t p j r hr]

theorem read3_5 (G : Cert.Spec.A2 512 64) (t : Fin cfg3.N) (p : Fin 32) (d : Fin 64) (r : Fin 512) (hr : r.val = 32 * t.val + p.val) :
    ((cfg3.win 5).blk t).view.read (Elt Ideal) G (ix2 p d) = G (ix2 r d) := by
  show G (((cfg3.win 5).blk t).view.emb (ix2 p d)) = G (ix2 r d)
  rw [emb3_5 t p d r hr]

theorem weight_block3 (c : Dev nD) (t : Fin cfg3.N) (p : Fin 32) (j : Fin 16384) (r : Fin 512) (hr : r.val = 32 * t.val + p.val) :
    k3_pay1 (F := Ideal) (matblk3 V c t) (maskblk3 V c t) (arowblk3 V c t) (ix2 p j)
      = ((cfg3.win 4).blk t).view.read (Elt Ideal)
          (Cert.Spec.weightArr (score3 V c)) (ix2 p j) :=
  ((pay1_apply3 (matblk3 V c t) (maskblk3 V c t) (arowblk3 V c t) p j).trans
      (congrArg (fun zr => rowsoft3 zr j) (zblk_eq3 V c t p r hr))).trans
    ((read3_4 (Cert.Spec.weightArr (score3 V c)) t p j r hr).trans
      (weightArr_apply3 (score3 V c) r j)).symm

theorem pool_block3 (c : Dev nD) (t : Fin cfg3.N) (p : Fin 32) (d : Fin 64) (r : Fin 512) (hr : r.val = 32 * t.val + p.val) :
    k3_pay2 (F := Ideal) (matblk3 V c t) (maskblk3 V c t) (arowblk3 V c t) (featblk3 V c t) (ix2 p d)
      = ((cfg3.win 5).blk t).view.read (Elt Ideal)
          (Cert.Spec.poolArr (Cert.Spec.weight (score3 V c)) (V c main_v5_0)) (ix2 p d) := by
  refine ((pay2_apply3 (matblk3 V c t) (maskblk3 V c t) (arowblk3 V c t) (featblk3 V c t) p d).trans ?_).trans
    ((read3_5 (Cert.Spec.poolArr (Cert.Spec.weight (score3 V c)) (V c main_v5_0)) t p d r hr).trans
      (poolArr_apply3 (score3 V c) (V c main_v5_0) r d)).symm
  rw [zblk_eq3 V c t p r hr]
  exact Fintype.sum_congr _ _ fun j => congrArg (fun w : EReal => rowsoft3 (score3 V c r) j * w) (featblk_apply3 V c t j d)

theorem flushed3_4 (c : Dev nD) (t : Fin cfg3.N) :
    (dat3 V c).flushed 4 t = ((cfg3.win 4).blk t).view.read (Elt Ideal)
      (Cert.Spec.weightArr (score3 V c)) := by
  show (cfg3.win 4).cut (grid3.coords t) ((dat3 V c).after 4 t) = _
  rw [after3_4]
  unfold out3_4
  rw [View.canon_unit_zero hz3]
  simp only [View.ld_unit_zero (S := S32x16384) hz3, View.ld_unit_zero (S := S1x16384) hz3]
  refine funext fun (y : S32x16384.Idx) => ?_
  obtain ⟨p, j, rfl⟩ : ∃ (p : Fin 32) (j : Fin 16384), y = ix2 p j := ⟨y 0, y 1, eq_ix2 y⟩
  have ht := lt16_3 t
  exact weight_block3 V c t p j ⟨32 * t.val + p.val, by omega⟩ rfl

theorem flushed3_5 (c : Dev nD) (t : Fin cfg3.N) :
    (dat3 V c).flushed 5 t = ((cfg3.win 5).blk t).view.read (Elt Ideal)
      (Cert.Spec.poolArr (Cert.Spec.weight (score3 V c)) (V c main_v5_0)) := by
  show (cfg3.win 5).cut (grid3.coords t) ((dat3 V c).after 5 t) = _
  rw [after3_5]
  unfold out3_5
  rw [View.canon_unit_zero hz3]
  simp only [View.ld_unit_zero (S := S32x16384) hz3, View.ld_unit_zero (S := S1x16384) hz3, View.ld_unit_zero (S := S16384x64) hz3]
  refine funext fun (y : S32x64.Idx) => ?_
  obtain ⟨p, d, rfl⟩ : ∃ (p : Fin 32) (d : Fin 64), y = ix2 p d := ⟨y 0, y 1, eq_ix2 y⟩
  have ht := lt16_3 t
  exact pool_block3 V c t p d ⟨32 * t.val + p.val, by omega⟩ rfl

theorem mem_blk3_4 (t : Fin cfg3.N) (i : S512x16384.Idx) :
    i ∈ ((cfg3.win 4).blk t).view.set ↔ ∀ a : Fin 2, win3_4.index t a * S32x16384.size a ≤ (i a).val ∧ (i a).val < win3_4.index t a * S32x16384.size a + S32x16384.size a := by
  show i ∈ ((View.whole main_v7_0).slice (win3_4.rect t)).set ↔ _
  rw [View.set_slice_whole, Rect.mem_set_unit]
  exact Iff.rfl

theorem mem_blk3_5 (t : Fin cfg3.N) (i : S512x64.Idx) :
    i ∈ ((cfg3.win 5).blk t).view.set ↔ ∀ a : Fin 2, win3_5.index t a * S32x64.size a ≤ (i a).val ∧ (i a).val < win3_5.index t a * S32x64.size a + S32x64.size a := by
  show i ∈ ((View.whole main_v7_1).slice (win3_5.rect t)).set ↔ _
  rw [View.set_slice_whole, Rect.mem_set_unit]
  exact Iff.rfl

theorem covered3_4 (i : S512x16384.Idx) : ∃ t : Fin cfg3.N, (cfg3.win 4).flush t = true ∧ i ∈ ((cfg3.win 4).blk t).view.set := by
  have hi0 : (i 0).val < 512 := (i 0).isLt
  have hi1 : (i 1).val < 16384 := (i 1).isLt
  obtain ⟨t, ht⟩ : ∃ t : Fin cfg3.N, t.val = (i 0).val / 32 := ⟨⟨_, lt_of_lt_of_eq (by omega : (i 0).val / 32 < 16) N_3.symm⟩, rfl⟩
  obtain ⟨-, -, -, -, -, -, -, -, e40, e41, e50, e51⟩ := idx_facts3 t
  refine ⟨t, flush3_4 t, ?_⟩
  rw [mem_blk3_4]
  intro a
  match a with
  | ⟨0, _⟩ => show win3_4.index t (0 : Fin 2) * 32 ≤ (i 0).val ∧ (i 0).val < win3_4.index t (0 : Fin 2) * 32 + 32; omega
  | ⟨1, _⟩ => show win3_4.index t (1 : Fin 2) * 16384 ≤ (i 1).val ∧ (i 1).val < win3_4.index t (1 : Fin 2) * 16384 + 16384; omega

theorem covered3_5 (i : S512x64.Idx) : ∃ t : Fin cfg3.N, (cfg3.win 5).flush t = true ∧ i ∈ ((cfg3.win 5).blk t).view.set := by
  have hi0 : (i 0).val < 512 := (i 0).isLt
  have hi1 : (i 1).val < 64 := (i 1).isLt
  obtain ⟨t, ht⟩ : ∃ t : Fin cfg3.N, t.val = (i 0).val / 32 := ⟨⟨_, lt_of_lt_of_eq (by omega : (i 0).val / 32 < 16) N_3.symm⟩, rfl⟩
  obtain ⟨-, -, -, -, -, -, -, -, e40, e41, e50, e51⟩ := idx_facts3 t
  refine ⟨t, flush3_5 t, ?_⟩
  rw [mem_blk3_5]
  intro a
  match a with
  | ⟨0, _⟩ => show win3_5.index t (0 : Fin 2) * 32 ≤ (i 0).val ∧ (i 0).val < win3_5.index t (0 : Fin 2) * 32 + 32; omega
  | ⟨1, _⟩ => show win3_5.index t (1 : Fin 2) * 64 ≤ (i 1).val ∧ (i 1).val < win3_5.index t (1 : Fin 2) * 64 + 64; omega

theorem final3_4 (c : Dev nD) : (dat3 V c).arrAt 4 cfg3.N = Cert.Spec.weightArr (Cert.Spec.score (V c main_arg2) (V c main_arg3) (V c main_v6)) :=
  (dat3 V c).arrAt_eq_of_cover 4 _ (fun t _ => flushed3_4 V c t) covered3_4

theorem final3_5 (c : Dev nD) : (dat3 V c).arrAt 5 cfg3.N = Cert.Spec.poolArr (Cert.Spec.weight (Cert.Spec.score (V c main_arg2) (V c main_arg3) (V c main_v6))) (V c main_v5_0) :=
  (dat3 V c).arrAt_eq_of_cover 5 _ (fun t _ => flushed3_5 V c t) covered3_5

end Cert.KernelIdeal.Hand

end
-- ==== Proof.KI.Value.lean ====
import proofs.«404698_j11304353923438_3_alg».proof.Proof.KI.Run
import proofs.«404698_j11304353923438_3_alg».proof.Proof.KI.Val0
import proofs.«404698_j11304353923438_3_alg».proof.Proof.KI.Val1
import proofs.«404698_j11304353923438_3_alg».proof.Proof.KI.Val2
import proofs.«404698_j11304353923438_3_alg».proof.Proof.KI.Val3
import proofs.«404698_j11304353923438_3_alg».proof.Proof.Spec
import Idealize.ShloMosaic.Lib.StableHlo.Run
import Idealize.ShloMosaic.Lib.Pipeline.Value
import Idealize.ShloMosaic.Lib.ValueLayout

noncomputable section

namespace Cert.KernelIdeal.Hand

open Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

section Launch

abbrev written : List (Ref sig .tc) := [main_v0, main_v1, main_v2, main_v3, main_v4, main_v5_0, main_v5_1, main_v6]

variable (b : Ref sig .tc) (hb : b ∉ written)
include hb

theorem not_written {l : List (Ref sig .tc)} (hl : ∀ x ∈ l, x ∈ written) : b ∉ l := fun h => hb (hl b h)

-- Every region reads the arguments at their launch contents: nothing before it writes them.
theorem W1_launch : W1 m ρ c (Proc.devRef .tc b) = m ((c : Thread nD τ).loc b) :=
  W1_keep m ρ c b (not_written b hb (by decide))
theorem W2_launch : W2 m ρ c (Proc.devRef .tc b) = m ((c : Thread nD τ).loc b) :=
  (W2_keep m ρ c b (not_written b hb (by decide))).trans (W1_launch m ρ c b hb)
theorem W3_launch : W3 m ρ c (Proc.devRef .tc b) = m ((c : Thread nD τ).loc b) :=
  (W3_keep m ρ c b (not_written b hb (by decide))).trans (W2_launch m ρ c b hb)
theorem W4_launch : W4 m ρ c (Proc.devRef .tc b) = m ((c : Thread nD τ).loc b) :=
  (W4_keep m ρ c b (not_written b hb (by decide))).trans (W3_launch m ρ c b hb)
theorem W5_launch : W5 m ρ c (Proc.devRef .tc b) = m ((c : Thread nD τ).loc b) :=
  (W5_keep m ρ c b (not_written b hb (by decide))).trans (W4_launch m ρ c b hb)
theorem W6_launch : W6 m ρ c (Proc.devRef .tc b) = m ((c : Thread nD τ).loc b) :=
  (W6_keep m ρ c b (not_written b hb (by decide))).trans (W5_launch m ρ c b hb)
theorem W7_launch : W7 m ρ c (Proc.devRef .tc b) = m ((c : Thread nD τ).loc b) :=
  (W7_keep m ρ c b (not_written b hb (by decide))).trans (W6_launch m ρ c b hb)

end Launch

-- Between regions a vector is only re-read as a one-row matrix.
theorem row_of_vec {α : Type} {n : ℕ} (x : (⟨1, ![n]⟩ : Shape).Idx → α) (h : (⟨1, ![n]⟩ : Shape).ShapeCasts ⟨2, ![1, n]⟩) :
    shapeCast ⟨2, ![1, n]⟩ x h = fun i => x (ix1 (i 1)) :=
  funext fun i => by rw [eq_ix2 i]; exact shapeCast_a_1a_apply x h _ _

theorem W1_v0 : W1 m ρ c (Proc.devRef .tc main_v0) = Cert.Spec.row64 (m ((c : Thread nD τ).loc main_arg5)) := by
  show StableHlo.after hostOps0 _ (Proc.devRef .tc main_v0) = _
  after_results
  exact row_of_vec _ _

theorem W3_v2 : W3 m ρ c (Proc.devRef .tc main_v2) = Cert.Spec.row64 (m ((c : Thread nD τ).loc main_arg7)) := by
  show StableHlo.after hostOps1 _ (Proc.devRef .tc main_v2) = _
  after_results
  rw [W2_launch m ρ c main_arg7 (by decide)]
  exact row_of_vec _ _

theorem W5_v4 : W5 m ρ c (Proc.devRef .tc main_v4) (ix2 (0 : Fin 1) (0 : Fin 1)) = m ((c : Thread nD τ).loc main_arg9) (ix1 (0 : Fin 1)) := by
  show StableHlo.after hostOps2 _ (Proc.devRef .tc main_v4) _ = _
  after_results
  rw [W4_launch m ρ c main_arg9 (by decide)]
  exact congrFun (row_of_vec _ _) _

theorem W7_v6 : W7 m ρ c (Proc.devRef .tc main_v6) = Cert.Spec.arow (W6 m ρ c (Proc.devRef .tc main_v5_1)) := by
  show StableHlo.after hostOps3 _ (Proc.devRef .tc main_v6) = _
  after_results
  exact row_of_vec _ _

def argsKI : Cert.Spec.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

theorem W2_v1 : W2 m ρ c (Proc.devRef .tc main_v1) = Cert.Spec.P0 (argsKI m c) := by
  refine (W2_arr m ρ c 3).trans ?_
  rw [final0_3]
  dsimp only [V1]
  rw [W1_launch m ρ c main_arg0 (by decide), W1_launch m ρ c main_arg4 (by decide), W1_v0]
  rfl

theorem W4_v3 : W4 m ρ c (Proc.devRef .tc main_v3) = Cert.Spec.P1 (argsKI m c) := by
  refine (W4_arr m ρ c 4).trans ?_
  rw [final1_4]
  dsimp only [V3]
  rw [W3_launch m ρ c main_arg1 (by decide), W3_launch m ρ c main_arg6 (by decide), W3_v2,
    W3_keep m ρ c main_v1 (by decide), W2_v1]
  rfl

theorem W6_v5_0 : W6 m ρ c (Proc.devRef .tc main_v5_0) = Cert.Spec.H (argsKI m c) := by
  refine (W6_arr m ρ c 4).trans ?_
  rw [final2_4]
  dsimp only [V5]
  rw [W5_launch m ρ c main_arg1 (by decide), W5_keep m ρ c main_v3 (by decide), W4_v3]
  rfl

theorem W6_v5_1 : W6 m ρ c (Proc.devRef .tc main_v5_1) = Cert.Spec.Alog (argsKI m c) := by
  refine (W6_arr m ρ c 5).trans ?_
  rw [final2_5]
  dsimp only [V5]
  rw [W5_launch m ρ c main_arg1 (by decide), W5_keep m ρ c main_v3 (by decide), W4_v3,
    W5_launch m ρ c main_arg8 (by decide), W5_v4]
  rfl

theorem W8_v7_0 : W8 m ρ c (Proc.devRef .tc main_v7_0) = Cert.Spec.Wt (argsKI m c) := by
  refine (W8_arr m ρ c 4).trans ?_
  rw [final3_4]
  dsimp only [V7]
  rw [W7_launch m ρ c main_arg2 (by decide), W7_launch m ρ c main_arg3 (by decide), W7_v6, W6_v5_1]
  rfl

theorem W8_v7_1 : W8 m ρ c (Proc.devRef .tc main_v7_1) = Cert.Spec.Pooled (argsKI m c) := by
  refine (W8_arr m ρ c 5).trans ?_
  rw [final3_5]
  dsimp only [V7]
  rw [W7_launch m ρ c main_arg2 (by decide), W7_launch m ρ c main_arg3 (by decide), W7_v6, W6_v5_1,
    W7_keep m ρ c main_v5_0 (by decide), W6_v5_0]
  rfl

end Cert.KernelIdeal.Hand

end
-- ==== Proof.Ref.Run.lean ====
import proofs.«404698_j11304353923438_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- @main's operations in order, the rectifier's and the selection's bodies read where they are called.
abbrev ops : List (HloOp τ sig (Elt F)) :=
  [ unary main_arg4 main_v0 (transpose S64x64 [1, 0] · transposes_S64x64_S64x64_1_0),
    binary main_arg0 main_v0 main_v1 (Host.dotGeneral dot_S16384x64_S64x64_S16384x64_1_0_0_1_n_n none · ·),
    unary main_arg5 main_v2 (broadcastInDim S1x64 ![1] bcast_S64_S1x64_1),
    unary main_v2 main_v3 (broadcastInDim S16384x64 ![0, 1] bcast_S1x64_S16384x64_0_1),
    binary main_v1 main_v3 main_v4 addf,
    binary main_arg1 main_v4 main_v5 (Host.dotGeneral dot_S16384x16384_S16384x64_S16384x64_1_0_0_1_n_n none · ·),
    nullary main_cst (constant S_ .f32 0x3C23D70A#32),
    TRef.nullary main_call0.cst (constant S_ .f32 0x00000000#32),
    TRef.unary main_call0.cst main_call0.v0 (broadcastInDim S16384x64 ![] bcast_S_S16384x64),
    TRef.binary (.of main_v5) main_call0.v0 main_call0.v1 (cmpf .oge),
    TRef.unary (.of main_cst) main_call0.v2 id,
    TRef.unary main_call0.v2 main_call0.v3 (broadcastInDim S16384x64 ![] bcast_S_S16384x64),
    TRef.binary main_call0.v3 (.of main_v5) main_call0.v4 mulf,
    TRef.ternary main_call0.v1 (.of main_v5) main_call0.v4 main_call0.call0.v0 select,
    unary main_arg6 main_v7 (transpose S64x64 [1, 0] · transposes_S64x64_S64x64_1_0),
    binary main_v6 main_v7 main_v8 (Host.dotGeneral dot_S16384x64_S64x64_S16384x64_1_0_0_1_n_n none · ·),
    unary main_arg7 main_v9 (broadcastInDim S1x64 ![1] bcast_S64_S1x64_1),
    unary main_v9 main_v10 (broadcastInDim S16384x64 ![0, 1] bcast_S1x64_S16384x64_0_1),
    binary main_v8 main_v10 main_v11 addf,
    binary main_arg1 main_v11 main_v12 (Host.dotGeneral dot_S16384x16384_S16384x64_S16384x64_1_0_0_1_n_n none · ·),
    unary main_v12 main_v13 Host.tanh,
    unary main_arg8 main_v14 (transpose S64x1 [1, 0] · transposes_S1x64_S64x1_1_0),
    binary main_v13 main_v14 main_v15 (Host.dotGeneral dot_S16384x64_S64x1_S16384x1_1_0_0_1_n_n none · ·),
    unary main_arg9 main_v16 (broadcastInDim S1x1 ![1] bcast_S1_S1x1_1),
    unary main_v16 main_v17 (broadcastInDim S16384x1 ![0, 1] bcast_S1x1_S16384x1_0_1),
    binary main_v15 main_v17 main_v18 addf,
    reshape main_v18 main_v19 rfl shapeCasts_S16384x1_S16384,
    unary main_v19 main_v20 (broadcastInDim S1x16384 ![1] bcast_S16384_S1x16384_1),
    unary main_v20 main_v21 (broadcastInDim S512x16384 ![0, 1] bcast_S1x16384_S512x16384_0_1),
    binary main_arg2 main_v21 main_v22 mulf,
    binary main_v22 main_arg3 main_v23 addf,
    nullary main_cst_0 (constant S_ .f32 0xFF800000#32),
    binary main_v23 main_cst_0 main_v24 (Host.reduce FloatOps.maximumf · · reducesTo_S512x16384_S512_d1 h_S_),
    nullary main_cst_1 (constant S_ .f32 0xFF800000#32),
    unary main_cst_1 main_v25 (broadcastInDim S512 ![] bcast_S_S512),
    binary main_v25 main_v24 main_v26 maximumf,
    unary main_v26 main_v27 (broadcastInDim S512x1 ![0] bcast_S512_S512x1_0),
    unary main_v27 main_v28 (broadcastInDim S512x16384 ![0, 1] bcast_S512x1_S512x16384_0_1),
    binary main_v23 main_v28 main_v29 subf,
    unary main_v29 main_v30 Host.exp,
    nullary main_cst_2 (constant S_ .f32 0x00000000#32),
    binary main_v30 main_cst_2 main_v31 (Host.reduceAdd · · reducesTo_S512x16384_S512_d1 h_S_),
    unary main_v31 main_v32 (broadcastInDim S512x1 ![0] bcast_S512_S512x1_0),
    unary main_v32 main_v33 (broadcastInDim S512x16384 ![0, 1] bcast_S512x1_S512x16384_0_1),
    binary main_v30 main_v33 main_v34 Host.divf,
    binary main_v34 main_v13 main_v35 (Host.dotGeneral dot_S512x16384_S16384x64_S512x64_1_0_0_1_n_n none · ·) ]

set_option maxRecDepth 2048 in
theorem main_eq (c : Dev nD) : main (F := F) c = seq ops := by
  simp only [main, fn_leaky_relu.body, fn_where.body, seq, bind_assoc, pure_bind]
  rfl

theorem ops_sub : (ops : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

variable (m : (ℓ : Loc nD τ sig) → Buf (Elt F) ℓ) (c : Dev nD)

-- The two results: the values the operations, run in order from the launch contents, leave at main_v35 and main_v34.
def res35 : Buf (Elt F) ((c.tc : Thread nD τ).loc main_v35) := after ops (launchContents m c) (Proc.devRef .tc main_v35)
def res34 : Buf (Elt F) ((c.tc : Thread nD τ).loc main_v34) := after ops (launchContents m c) (Proc.devRef .tc main_v34)

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v35) = res35 m c
      ∧ r.2.mem ((c.tc : Thread nD τ).loc main_v34) = res34 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => by
      refine ⟨h c _, h c _, ?_, ?_, ?_, ?_, ?_, ?_, ?_, ?_, ?_, ?_⟩ <;> exact (h c _).trans (by after_results_simp))
    (run_seq (by decide) (by decide) defs main (fun _ => ops) main_eq (fun _ => ops_sub) m ρ)

end Cert.ReferenceIdeal.Hand

end
-- ==== Proof.Ref.Value.lean ====
import proofs.«404698_j11304353923438_3_alg».proof.Proof.Ref.Run
import proofs.«404698_j11304353923438_3_alg».proof.Proof.Spec
import Idealize.ShloMosaic.Lib.IdealHost
import Idealize.ShloMosaic.Lib.Pipeline.Value
import Idealize.ShloMosaic.Lib.ValueLayout
import Idealize.ShloMosaic.Lib.StackMember

noncomputable section

open scoped BigOperators

namespace Cert.ReferenceIdeal.Hand

open Cert.ReferenceIdeal Cert.ReferenceIdeal.Gen Idealize.ShloMosaic Idealize.ShloMosaic.ValueIdx Idealize.ShloMosaic.TcCoe Idealize.SL.Sem
  Idealize.ShloMosaic.StableHlo Cert.Spec

section Layout

variable {α : Type} {a b : ℕ}

theorem ext2 {f g : (⟨2, ![a, b]⟩ : Shape).Idx → α} (h : ∀ n d, f (ix2 n d) = g (ix2 n d)) : f = g :=
  funext fun i => by rw [eq_ix2 i]; exact h _ _

theorem ext1 {f g : (⟨1, ![a]⟩ : Shape).Idx → α} (h : ∀ n, f (ix1 n) = g (ix1 n)) : f = g :=
  funext fun i => by rw [eq_ix1 i]; exact h _

theorem val_eq_ite (d : Fin b) : d.val = if b = 1 then 0 else d.val :=
  (ite_eq_right_iff.2 fun hb => by subst hb; exact (Fin.val_eq_zero d).symm).symm

-- For the biases and the logits, each laid along the rows of a matrix.
theorem rows_apply (v : (⟨1, ![b]⟩ : Shape).Idx → α) (h₁ : (⟨1, ![b]⟩ : Shape).BroadcastsInDim ⟨2, ![1, b]⟩ ![1])
    (h₂ : (⟨2, ![1, b]⟩ : Shape).BroadcastsInDim ⟨2, ![a, b]⟩ ![0, 1]) (n : Fin a) (d : Fin b) :
    broadcastInDim _ ![0, 1] h₂ (broadcastInDim _ ![1] h₁ v) (ix2 n d) = v (ix1 d) := by
  rw [broadcastInDim_apply _ _ _ _ (ix2 (0 : Fin 1) d) fun x => by match x with | ⟨0, _⟩ => rfl | ⟨1, _⟩ => exact val_eq_ite d,
    broadcastInDim_apply _ _ _ _ (ix1 d) fun x => by match x with | ⟨0, _⟩ => exact val_eq_ite d]

-- For a row's statistic (its greatest score, its sum) laid along the row.
theorem cols_apply (s : (⟨1, ![a]⟩ : Shape).Idx → α) (h₁ : (⟨1, ![a]⟩ : Shape).BroadcastsInDim ⟨2, ![a, 1]⟩ ![0])
    (h₂ : (⟨2, ![a, 1]⟩ : Shape).BroadcastsInDim ⟨2, ![a, b]⟩ ![0, 1]) (r : Fin a) (j : Fin b) :
    broadcastInDim _ ![0, 1] h₂ (broadcastInDim _ ![0] h₁ s) (ix2 r j) = s (ix1 r) := by
  rw [broadcastInDim_apply _ _ _ _ (ix2 r (0 : Fin 1)) fun x => by match x with | ⟨0, _⟩ => exact val_eq_ite r | ⟨1, _⟩ => rfl,
    broadcastInDim_apply _ _ _ _ (ix1 r) fun x => by match x with | ⟨0, _⟩ => exact val_eq_ite r]

end Layout

theorem agg_eq (e : FVec Ideal S16384x16384 .f32) (p : FVec Ideal S16384x64 .f32) :
    Host.dotGeneral dot_S16384x16384_S16384x64_S16384x64_1_0_0_1_n_n none e p = fun i => agg e p (i 0) (i 1) :=
  ext2 fun n d => StackMember.dotGeneral_plain_apply none e p n d

theorem affine_eq (x : FVec Ideal S16384x64 .f32) (w : FVec Ideal S64x64 .f32) (b : FVec Ideal S64 .f32) :
    addf (Host.dotGeneral dot_S16384x64_S64x64_S16384x64_1_0_0_1_n_n none x (transpose S64x64 [1, 0] w transposes_S64x64_S64x64_1_0))
        (broadcastInDim S16384x64 ![0, 1] bcast_S1x64_S16384x64_0_1 (broadcastInDim S1x64 ![1] bcast_S64_S1x64_1 b))
      = affineArr x w (row64 b) :=
  ext2 fun n d => congrArg₂ (· + ·)
    ((StackMember.dotGeneral_plain_apply none x _ n d).trans (Finset.sum_congr rfl fun k _ => by rw [transpose_ix2_apply]))
    (rows_apply b _ _ n d)

theorem leaky_eq (v : FVec Ideal S16384x64 .f32) :
    select (cmpf .oge v (broadcastInDim S16384x64 ![] bcast_S_S16384x64 (constant S_ .f32 0x00000000#32))) v
        (mulf (broadcastInDim S16384x64 ![] bcast_S_S16384x64 (id (constant S_ .f32 0x3C23D70A#32))) v)
      = fun i => leaky (v i) :=
  funext fun i => by
    rw [select_apply, cmpf_apply, mulf_apply, broadcastInDim_scalar_apply, broadcastInDim_scalar_apply, constant_apply,
      Ideal.ofBits_zero_f32]
    rfl

theorem tanh_eq (v : FVec Ideal S16384x64 .f32) : Host.tanh v = fun i => Ideal.tanh (v i) :=
  funext fun i => Ideal.hostUnary_tanh_def _

-- The logits: a one-column product plus the scalar bias, the column read as a vector.
theorem logit_eq (h : FVec Ideal S16384x64 .f32) (w : FVec Ideal S1x64 .f32) (b : FVec Ideal S1 .f32) :
    shapeCast S16384
        (addf (Host.dotGeneral dot_S16384x64_S64x1_S16384x1_1_0_0_1_n_n none h (transpose S64x1 [1, 0] w transposes_S1x64_S64x1_1_0))
          (broadcastInDim S16384x1 ![0, 1] bcast_S1x1_S16384x1_0_1 (broadcastInDim S1x1 ![1] bcast_S1_S1x1_1 b)))
        shapeCasts_S16384x1_S16384
      = logitArr h w (b (ix1 (0 : Fin 1))) :=
  ext1 fun n => by
    rw [shapeCast_apply _ _ _ (ix2 n (0 : Fin 1)) (by
      rw [Shape.rowMajor_val_two, Shape.rowMajor_val_one]; exact (Nat.add_zero _).trans (Nat.mul_one _))]
    exact congrArg₂ (· + ·)
      ((StackMember.dotGeneral_plain_apply none h _ n _).trans (Finset.sum_congr rfl fun d _ => by rw [transpose_ix2_apply]))
      (rows_apply b _ _ n _)

theorem score_eq (mat mask : FVec Ideal S512x16384 .f32) (l : FVec Ideal S16384 .f32) :
    addf (mulf mat (broadcastInDim S512x16384 ![0, 1] bcast_S1x16384_S512x16384_0_1
        (broadcastInDim S1x16384 ![1] bcast_S16384_S1x16384_1 l))) mask
      = fun i => score mat mask (arow l) (i 0) (i 1) :=
  ext2 fun r j => congrArg (mat (ix2 r j) * · + mask (ix2 r j)) (rows_apply l _ _ r j)

theorem lift_row (h : S512x16384.Reduces [1] S512) (r : Fin 512) (k : Fin (S512x16384.size 1)) :
    h.lift (ix1 r) k = ix2 r (⟨k.val, k.isLt⟩ : Fin 16384) := by
  funext a; apply Fin.ext
  fin_cases a <;> rfl

theorem ofBits_neg_inf : Ideal.ofBits .f32 0xFF800000#32 = (⊥ : EReal) := by
  simp [Ideal.ofBits, Ideal.ieee]

-- exp(z − its row's greatest): the greatest is the fold of max from −∞, and a further max with −∞ leaves it.
abbrev shifted (z : FVec Ideal S512x16384 .f32) : FVec Ideal S512x16384 .f32 :=
  Host.exp (subf z (broadcastInDim S512x16384 ![0, 1] bcast_S512x1_S512x16384_0_1 (broadcastInDim S512x1 ![0] bcast_S512_S512x1_0
    (maximumf (broadcastInDim S512 ![] bcast_S_S512 (constant S_ .f32 0xFF800000#32))
      (Host.reduce FloatOps.maximumf z (constant S_ .f32 0xFF800000#32) reducesTo_S512x16384_S512_d1 h_S_)))))

theorem shifted_apply (z : FVec Ideal S512x16384 .f32) (r : Fin 512) (j : Fin 16384) :
    shifted z (ix2 r j) = Ideal.exp (z (ix2 r j) - rowmax fun j => z (ix2 r j)) := by
  have hR : S512x16384.Reduces [1] S512 := by decide
  show FloatOps.hostUnary .exp _ = _
  rw [Ideal.hostUnary_exp_def, subf_apply, cols_apply, maximumf_apply, broadcastInDim_scalar_apply, constant_apply, ofBits_neg_inf,
    bot_sup_eq, Host.reduce_eq_fold_single FloatOps.maximumf z _ reducesTo_S512x16384_S512_d1 hR h_S_, constant_apply, ofBits_neg_inf]
  exact congrArg (fun f => Ideal.exp (z (ix2 r j) - Finset.fold max (⊥ : EReal) f Finset.univ))
    (funext fun k => congrArg z (lift_row hR r k))

theorem rowsum_apply (x : FVec Ideal S512x16384 .f32) (r : Fin 512) :
    Host.reduceAdd x (constant S_ .f32 0x00000000#32) reducesTo_S512x16384_S512_d1 h_S_ (ix1 r) = ∑ j : Fin 16384, x (ix2 r j) := by
  have hR : S512x16384.Reduces [1] S512 := by decide
  rw [hostReduceAdd_apply, Ideal.hostReduceAdd_single reducesTo_S512x16384_S512_d1 hR, constant_apply, Ideal.ofBits_zero_f32, zero_add]
  exact Finset.sum_congr rfl fun k _ => congrArg x (lift_row hR r k)

theorem softmax_eq (z : FVec Ideal S512x16384 .f32) :
    Host.divf (shifted z) (broadcastInDim S512x16384 ![0, 1] bcast_S512x1_S512x16384_0_1 (broadcastInDim S512x1 ![0] bcast_S512_S512x1_0
        (Host.reduceAdd (shifted z) (constant S_ .f32 0x00000000#32) reducesTo_S512x16384_S512_d1 h_S_)))
      = weightArr fun r j => z (ix2 r j) :=
  ext2 fun r j => by
    rw [hostDivf_apply, cols_apply, rowsum_apply, shifted_apply, Finset.sum_congr rfl fun k _ => shifted_apply z r k]
    rfl

theorem pool_eq (w : FVec Ideal S512x16384 .f32) (h : FVec Ideal S16384x64 .f32) :
    Host.dotGeneral dot_S512x16384_S16384x64_S512x64_1_0_0_1_n_n none w h = poolArr (fun r j => w (ix2 r j)) h :=
  ext2 fun r d => StackMember.dotGeneral_plain_apply none w h r d

variable (m : (ℓ : Loc nD τ sig) → Buf (Elt Ideal) ℓ) (c : Dev nD)

def args : Cert.Spec.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9)⟩

-- Stage by stage the operations' composition is the specification's.
theorem res_eq : res34 (F := Ideal) m c = Wt (args m c) ∧ res35 (F := Ideal) m c = Pooled (args m c) := by
  unfold res34 res35
  after_results_simp
  rw [affine_eq, affine_eq, agg_eq, agg_eq]
  erw [leaky_eq]
  rw [tanh_eq]
  erw [logit_eq]
  rw [score_eq, softmax_eq]
  simp only [TRef.toBuf, TRef.ofBuf]
  erw [cast_eq, cast_eq]
  exact ⟨rfl, pool_eq _ _⟩

theorem res34_eq : res34 (F := Ideal) m c = Wt (args m c) := (res_eq m c).1

theorem res35_eq : res35 (F := Ideal) m c = Pooled (args m c) := (res_eq m c).2

end Cert.ReferenceIdeal.Hand

end
-- ==== Proof.lean ====
import proofs.«404698_j11304353923438_3_alg».proof.Defs
import proofs.«404698_j11304353923438_3_alg».proof.Proof.Gen.Kernel
import proofs.«404698_j11304353923438_3_alg».proof.Proof.Gen.KernelIdeal
import proofs.«404698_j11304353923438_3_alg».proof.Proof.Gen.ReferenceIdeal
import proofs.«404698_j11304353923438_3_alg».proof.Proof.Gen.Pre_finite_inputs
import proofs.«404698_j11304353923438_3_alg».proof.Proof.K.Run
import proofs.«404698_j11304353923438_3_alg».proof.Proof.KI.Value
import proofs.«404698_j11304353923438_3_alg».proof.Proof.Ref.Value
import Idealize.ShloMosaic.Adequacy
import Idealize.ShloMosaic.Init

noncomputable section

namespace Cert.Proof

open Idealize.ShloMosaic Idealize.SL.Sem

/-- Both kernel programs run to the end with every unscoped buffer at the run's last contents, and no item of the run
    writes an argument array. -/
theorem frame_k : Cert.frame_Kernel := fun m ρ _ =>
  (θ_run Cert.Kernel.defs _ _).mono (fun r h c => Cert.Kernel.Hand.args_kept m ρ c (h c)) (Cert.Kernel.Hand.run_all (F := Bits) m ρ)

theorem frame_ki : Cert.frame_KernelIdeal := fun m ρ _ =>
  (θ_run Cert.KernelIdeal.defs _ _).mono (fun r h c => Cert.KernelIdeal.Hand.args_kept m ρ c (h c)) (Cert.KernelIdeal.Hand.run_all (F := Ideal) m ρ)

theorem frame_ri : Cert.frame_ReferenceIdeal := fun m ρ _ =>
  (θ_run Cert.ReferenceIdeal.defs _ _).mono (fun _ h c => (h c).2.2) (Cert.ReferenceIdeal.Hand.run (F := Ideal) m ρ)

/-- From memories agreeing on the arguments both programs end with the pooled features and the softmax weights that the
    specification computes from those arguments. -/
theorem algebraic : Cert.algebraic_KernelIdeal_ReferenceIdeal := by
  intro m ρ m' ρ' _ hagree
  refine ⟨fun c => Cert.Spec.Pooled (Cert.KernelIdeal.Hand.argsKI m c), fun c => Cert.Spec.Wt (Cert.KernelIdeal.Hand.argsKI m c), ?_, ?_⟩
  · exact (θ_run Cert.KernelIdeal.defs _ _).mono (fun r h c =>
      ⟨(h c _ (Cert.KernelIdeal.Hand.mem_uc Cert.KernelIdeal.main_v7_1 (by decide))).trans (Cert.KernelIdeal.Hand.W8_v7_1 m ρ c),
        (h c _ (Cert.KernelIdeal.Hand.mem_uc Cert.KernelIdeal.main_v7_0 (by decide))).trans (Cert.KernelIdeal.Hand.W8_v7_0 m ρ c),
        Cert.KernelIdeal.Hand.args_kept m ρ c (h c)⟩)
      (Cert.KernelIdeal.Hand.run_all (F := Ideal) m ρ)
  · refine (θ_run Cert.ReferenceIdeal.defs _ _).mono (fun r h c => ?_) (Cert.ReferenceIdeal.Hand.run (F := Ideal) m' ρ')
    have e : Cert.ReferenceIdeal.Hand.args m' c = Cert.KernelIdeal.Hand.argsKI m c := by
      obtain ⟨h0, h1, h2, h3, h4, h5, h6, h7, h8, h9⟩ := hagree c
      unfold Cert.ReferenceIdeal.Hand.args Cert.KernelIdeal.Hand.argsKI
      rw [h0, h1, h2, h3, h4, h5, h6, h7, h8, h9]
    exact ⟨(h c).1.trans (by rw [Cert.ReferenceIdeal.Hand.res35_eq, e]), (h c).2.1.trans (by rw [Cert.ReferenceIdeal.Hand.res34_eq, e]), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
